-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128000 : Shape := ⟨2, ![256, 128000]⟩
abbrev S256x32 : Shape := ⟨2, ![256, 32]⟩
abbrev S256 : Shape := ⟨1, ![256]⟩
abbrev S1024 : Shape := ⟨1, ![1024]⟩
abbrev S_ : Shape := ⟨0, ![]⟩

class Facts : Prop where
  bcast_S_S256x128000 : S_.BroadcastsInDim S256x128000 (![] : Fin 0 → Fin S256x128000.rank)
  reducesTo_S256x128000_S_d0_1 : S256x128000.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : IVec S1024 32) (main_v10 : IVec S_ 1) (main_v15 : IVec S256x32 1) (main_c_5 : IVec S_ 1) : IVec S_ 1 :=
  let main_v16 : IVec S_ 1 := (fun x v => Host.reduce IntOp.andi x v reducesTo_S256x32_S_d0_1 h_S_) main_v15 main_c_5
  let main_v17 : IVec S_ 1 := andi main_v10 main_v16
  let main_c_6 : IVec S_ 32 := constantI S_ 32 0#32
  let main_v18 : IVec S1024 32 := broadcastInDim S1024 ![] bcast_S_S1024 main_c_6
  let main_v19 : IVec S1024 1 := cmpi .sge main_arg5 main_v18
  let main_c_7 : IVec S_ 32 := constantI S_ 32 128000#32
  let main_v20 : IVec S1024 32 := broadcastInDim S1024 ![] bcast_S_S1024 main_c_7
  let main_v21 : IVec S1024 1 := cmpi .slt main_arg5 main_v20
  let main_v22 : IVec S1024 1 := andi main_v19 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v17 main_v23
  main_v24

def fn {F : FTy → Type} [FloatOps F] (main_arg0 : FVec F S256x128000 .f32) (main_arg1 : IVec S256x32 32) (main_arg2 : IVec S256 32) (main_arg3 : IVec S256x32 32) (main_arg4 : IVec S256 32) (main_arg5 : IVec S1024 32) : IVec S_ 1 :=
  let main_v0 : FVec F S256x128000 .f32 := Host.absf main_arg0
  let main_cst : FVec F S_ .f32 := constant S_ .f32 0x7F800000#32
  let main_v1 : FVec F S256x128000 .f32 := broadcastInDim S256x128000 ![] bcast_S_S256x128000 main_cst
  let main_v2 : IVec S256x128000 1 := cmpf .olt main_v0 main_v1
  let main_c : IVec S_ 1 := constantI S_ 1 1#1
  let main_v3 : IVec S_ 1 := (fun x v => Host.reduce IntOp.andi x v reducesTo_S256x128000_S_d0_1 h_S_) main_v2 main_c
  let main_c_0 : IVec S_ 32 := constantI S_ 32 0#32
  let main_v4 : IVec S256x32 32 := broadcastInDim S256x32 ![] bcast_S_S256x32 main_c_0
  let main_v5 : IVec S256x32 1 := cmpi .sge main_arg1 main_v4
  let main_c_1 : IVec S_ 32 := constantI S_ 32 128000#32
  let main_v6 : IVec S256x32 32 := broadcastInDim S256x32 ![] bcast_S_S256x32 main_c_1
  let main_v7 : IVec S256x32 1 := cmpi .slt main_arg1 main_v6
  let main_v8 : IVec S256x32 1 := andi main_v5 main_v7
  let main_c_2 : IVec S_ 1 := constantI S_ 1 1#1
  let main_v9 : IVec S_ 1 := (fun x v => Host.reduce IntOp.andi x v reducesTo_S256x32_S_d0_1 h_S_) main_v8 main_c_2
  let main_v10 : IVec S_ 1 := andi main_v3 main_v9
  let main_c_3 : IVec S_ 32 := constantI S_ 32 0#32
  let main_v11 : IVec S256x32 32 := broadcastInDim S256x32 ![] bcast_S_S256x32 main_c_3
  let main_v12 : IVec S256x32 1 := cmpi .sge main_arg3 main_v11
  let main_c_4 : IVec S_ 32 := constantI S_ 32 128000#32
  let main_v13 : IVec S256x32 32 := broadcastInDim S256x32 ![] bcast_S_S256x32 main_c_4
  let main_v14 : IVec S256x32 1 := cmpi .slt main_arg3 main_v13
  let main_v15 : IVec S256x32 1 := andi main_v12 main_v14
  let main_c_5 : IVec S_ 1 := constantI S_ 1 1#1
  fn_part1 (F := F) main_arg5 main_v10 main_v15 main_c_5
-- ==== Kernel.lean ====
abbrev S256x128000 : Shape := ⟨2, ![256, 128000]⟩
abbrev S256x32 : Shape := ⟨2, ![256, 32]⟩
abbrev S256 : Shape := ⟨1, ![256]⟩
abbrev S1024 : Shape := ⟨1, ![1024]⟩
abbrev S1x1024 : Shape := ⟨2, ![1, 1024]⟩
abbrev S256x1 : Shape := ⟨2, ![256, 1]⟩
abbrev S128x32 : Shape := ⟨2, ![128, 32]⟩
abbrev S128x1 : Shape := ⟨2, ![128, 1]⟩
abbrev S128x1024 : Shape := ⟨2, ![128, 1024]⟩
abbrev S1024x1 : Shape := ⟨2, ![1024, 1]⟩
abbrev S128 : Shape := ⟨1, ![128]⟩
abbrev S1024x1024 : Shape := ⟨2, ![1024, 1024]⟩
abbrev S_ : Shape := ⟨0, ![]⟩
abbrev S1 : Shape := ⟨1, ![1]⟩
abbrev S4 : Shape := ⟨1, ![4]⟩

abbrev nBuf : Space → Nat
  | .hbm => 34
  | .vmem => 22
  | .smem => 0
  | _ => 0

abbrev bufTy : (tb : Table) → Fin (tcTables nBuf tb) → BufTy
  | .hbm, ⟨0, _⟩ => ⟨S256x128000, .f32⟩
  | .hbm, ⟨1, _⟩ => ⟨S256x32, .i32⟩
  | .hbm, ⟨2, _⟩ => ⟨S256, .i32⟩
  | .hbm, ⟨3, _⟩ => ⟨S256x32, .i32⟩
  | .hbm, ⟨4, _⟩ => ⟨S256, .i32⟩
  | .hbm, ⟨5, _⟩ => ⟨S1024, .i32⟩
  | .hbm, ⟨6, _⟩ => ⟨S1x1024, .i32⟩
  | .hbm, ⟨7, _⟩ => ⟨S256x1, .i32⟩
  | .hbm, ⟨8, _⟩ => ⟨S256x1, .i32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S4, .f32⟩
  | .local _ .vmem, ⟨0, _⟩ => ⟨S128x32, .i32⟩
  | .local _ .vmem, ⟨1, _⟩ => ⟨S128x32, .i32⟩
  | .local _ .vmem, ⟨2, _⟩ => ⟨S128x32, .i32⟩
  | .local _ .vmem, ⟨3, _⟩ => ⟨S128x32, .i32⟩
  | .local _ .vmem, ⟨4, _⟩ => ⟨S128x1, .i32⟩
  | .local _ .vmem, ⟨5, _⟩ => ⟨S128x1, .i32⟩
  | .local _ .vmem, ⟨6, _⟩ => ⟨S128x1, .i32⟩
  | .local _ .vmem, ⟨7, _⟩ => ⟨S128x1, .i32⟩
  | .local _ .vmem, ⟨8, _⟩ => ⟨S1x1024, .i32⟩
  | .local _ .vmem, ⟨9, _⟩ => ⟨S128x1024, .f32⟩
  | .local _ .vmem, ⟨10, _⟩ => ⟨S128x1024, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S128x32, .f32⟩
  | .local _ .vmem, ⟨20, _⟩ => ⟨S128x32, .f32⟩
  | .local _ .vmem, ⟨21, _⟩ => ⟨S128x1024, .f32⟩
  | _, _ => ⟨S256x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_cst_6 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v550 : BitVec 1 := Scalar.cmpi .eq arg1 c124_i32
  let v551 : BitVec 32 := Scalar.extui v550
  let c0_i32_241 : BitVec 32 := 0#32
  let v552 : BitVec 1 := Scalar.cmpi .ne v551 c0_i32_241
  v552

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S1024_S1x1024 : S1024.ShapeCasts S1x1024
  shapeCasts_S256_S256x1 : S256.ShapeCasts S256x1
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  iota_S1x1024_d1_w32 : S1x1024.Iotas .tc 32 [1]
  iota_S1024x1_d0_w32 : S1024x1.Iotas .tc 32 [0]
  inb_S128x32_S128x1_0_0 : ∀ a, (![0, 0] : Fin 2 → Nat) a + S128x1.size a ≤ S128x32.size a
  h_S128x1 : 0 < S128x1.numel
  broadcasts_S128x1_S128x1024 : S128x1.Broadcasts S128x1024
  broadcasts_S1x1024_S128x1024 : S1x1024.Broadcasts S128x1024
  reduces_S128x1024_S128 : S128x1024.Reduces [1] S128
  shapeCasts_S128_S128x1 : S128.ShapeCasts S128x1
  inb_S128x32_S128x1_0_1 : ∀ a, (![0, 1] : Fin 2 → Nat) a + S128x1.size a ≤ S128x32.size a
  inb_S128x32_S128x1_0_2 : ∀ a, (![0, 2] : Fin 2 → Nat) a + S128x1.size a ≤ S128x32.size a
  inb_S128x32_S128x1_0_3 : ∀ a, (![0, 3] : Fin 2 → Nat) a + S128x1.size a ≤ S128x32.size a
  inb_S128x32_S128x1_0_4 : ∀ a, (![0, 4] : Fin 2 → Nat) a + S128x1.size a ≤ S128x32.size a
  inb_S128x32_S128x1_0_5 : ∀ a, (![0, 5] : Fin 2 → Nat) a + S128x1.size a ≤ S128x32.size a
  inb_S128x32_S128x1_0_6 : ∀ a, (![0, 6] : Fin 2 → Nat) a + S128x1.size a ≤ S128x32.size a
  inb_S128x32_S128x1_0_7 : ∀ a, (![0, 7] : Fin 2 → Nat) a + S128x1.size a ≤ S128x32.size a
  inb_S128x32_S128x1_0_8 : ∀ a, (![0, 8] : Fin 2 → Nat) a + S128x1.size a ≤ S128x32.size a
  inb_S128x32_S128x1_0_9 : ∀ a, (![0, 9] : Fin 2 → Nat) a + S128x1.size a ≤ S128x32.size a
  inb_S128x32_S128x1_0_10 : ∀ a, (![0, 10] : Fin 2 → Nat) a + S128x1.size a ≤ S128x32.size a
  inb_S128x32_S128x1_0_11 : ∀ a, (![0, 11] : Fin 2 → Nat) a + S128x1.size a ≤ S128x32.size a
  inb_S128x32_S128x1_0_12 : ∀ a, (![0, 12] : Fin 2 → Nat) a + S128x1.size a ≤ S128x32.size a
  inb_S128x32_S128x1_0_13 : ∀ a, (![0, 13] : Fin 2 → Nat) a + S128x1.size a ≤ S128x32.size a
  inb_S128x32_S128x1_0_14 : ∀ a, (![0, 14] : Fin 2 → Nat) a + S128x1.size a ≤ S128x32.size a
  inb_S128x32_S128x1_0_15 : ∀ a, (![0, 15] : Fin 2 → Nat) a + S128x1.size a ≤ S128x32.size a
  inb_S128x32_S128x1_0_16 : ∀ a, (![0, 16] : Fin 2 → Nat) a + S128x1.size a ≤ S128x32.size a
  inb_S128x32_S128x1_0_17 : ∀ a, (![0, 17] : Fin 2 → Nat) a + S128x1.size a ≤ S128x32.size a
  inb_S128x32_S128x1_0_18 : ∀ a, (![0, 18] : Fin 2 → Nat) a + S128x1.size a ≤ S128x32.size a
  inb_S128x32_S128x1_0_19 : ∀ a, (![0, 19] : Fin 2 → Nat) a + S128x1.size a ≤ S128x32.size a
  inb_S128x32_S128x1_0_20 : ∀ a, (![0, 20] : Fin 2 → Nat) a + S128x1.size a ≤ S128x32.size a
  inb_S128x32_S128x1_0_21 : ∀ a, (![0, 21] : Fin 2 → Nat) a + S128x1.size a ≤ S128x32.size a
  inb_S128x32_S128x1_0_22 : ∀ a, (![0, 22] : Fin 2 → Nat) a + S128x1.size a ≤ S128x32.size a
  inb_S128x32_S128x1_0_23 : ∀ a, (![0, 23] : Fin 2 → Nat) a + S128x1.size a ≤ S128x32.size a
  inb_S128x32_S128x1_0_24 : ∀ a, (![0, 24] : Fin 2 → Nat) a + S128x1.size a ≤ S128x32.size a
  inb_S128x32_S128x1_0_25 : ∀ a, (![0, 25] : Fin 2 → Nat) a + S128x1.size a ≤ S128x32.size a
  inb_S128x32_S128x1_0_26 : ∀ a, (![0, 26] : Fin 2 → Nat) a + S128x1.size a ≤ S128x32.size a
  inb_S128x32_S128x1_0_27 : ∀ a, (![0, 27] : Fin 2 → Nat) a + S128x1.size a ≤ S128x32.size a
  inb_S128x32_S128x1_0_28 : ∀ a, (![0, 28] : Fin 2 → Nat) a + S128x1.size a ≤ S128x32.size a
  inb_S128x32_S128x1_0_29 : ∀ a, (![0, 29] : Fin 2 → Nat) a + S128x1.size a ≤ S128x32.size a
  inb_S128x32_S128x1_0_30 : ∀ a, (![0, 30] : Fin 2 → Nat) a + S128x1.size a ≤ S128x32.size a
  inb_S128x32_S128x1_0_31 : ∀ a, (![0, 31] : Fin 2 → Nat) a + S128x1.size a ≤ S128x32.size a
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 : Shape.Concatenates [S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1] S128x32 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  bitsLt_bf16_f32 : FTy.bits .bf16 < FTy.bits .f32
  inb_S128x1_S128x1_0_0 : ∀ a, (![0, 0] : Fin 2 → Nat) a + S128x1.size a ≤ S128x1.size a
  shapeCasts_S128x1_S128x1 : S128x1.ShapeCasts S128x1
  iota_S128x32_d1_w32 : S128x32.Iotas .tc 32 [1]
  broadcasts_S128x1_S128x32 : S128x1.Broadcasts S128x32
  reduces_S128x32_S128 : S128x32.Reduces [1] S128
  reducesTo_S256x1_S_d0_1 : S256x1.ReducesTo [0, 1] S_
  h_S_ : 0 < S_.numel
  bcast_S_S1 : S_.BroadcastsInDim S1 (![] : Fin 0 → Fin S1.rank)
  concatenates_S1_S1_S1_S1_S4_d0 : Shape.Concatenates [S1, S1, S1, S1] S4 0
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32.size a ≤ S256x32.size a
  hwx0_0 : ∀ i : grid0.Coords, EltTy.bits .i32 = 32 ∨ (Rect.block (s := S256x32) S128x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S256x32.size a
  hwx0_1 : ∀ i : grid0.Coords, EltTy.bits .i32 = 32 ∨ (Rect.block (s := S256x32) S128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .i32 = 32 ∨ (Rect.block (s := S256x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S256x1.size a
  hwx0_3 : ∀ i : grid0.Coords, EltTy.bits .i32 = 32 ∨ (Rect.block (s := S256x1) S128x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .i32 = 32 ∨ (Rect.block (s := S1x1024) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S256x128000.size a
  hwx0_5 : ∀ i : grid0.Coords, EltTy.bits .f32 = 32 ∨ (Rect.block (s := S256x128000) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S256x1.size a
  hwx0_6 : ∀ i : grid0.Coords, EltTy.bits .f32 = 32 ∨ (Rect.block (s := S256x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S256x1.size a
  hwx0_7 : ∀ i : grid0.Coords, EltTy.bits .f32 = 32 ∨ (Rect.block (s := S256x1) S128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S256x1.size a
  hwx0_8 : ∀ i : grid0.Coords, EltTy.bits .f32 = 32 ∨ (Rect.block (s := S256x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S256x1.size a
  hwx0_9 : ∀ i : grid0.Coords, EltTy.bits .f32 = 32 ∨ (Rect.block (s := S256x1) S128x1.size (cc0_transform_9 i) (hinb0_9 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg1) S128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S128x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_3) S128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S256x128000 : Shape := ⟨2, ![256, 128000]⟩
abbrev S256x32 : Shape := ⟨2, ![256, 32]⟩
abbrev S256 : Shape := ⟨1, ![256]⟩
abbrev S1024 : Shape := ⟨1, ![1024]⟩
abbrev S_ : Shape := ⟨0, ![]⟩
abbrev S256x32x1 : Shape := ⟨3, ![256, 32, 1]⟩
abbrev S1 : Shape := ⟨1, ![1]⟩
abbrev S1x1x1 : Shape := ⟨3, ![1, 1, 1]⟩
abbrev S32 : Shape := ⟨1, ![32]⟩
abbrev S1x32 : Shape := ⟨2, ![1, 32]⟩
abbrev S256x1 : Shape := ⟨2, ![256, 1]⟩
abbrev S1024x1 : Shape := ⟨2, ![1024, 1]⟩
abbrev S256x1024 : Shape := ⟨2, ![256, 1024]⟩
abbrev S4 : Shape := ⟨1, ![4]⟩

abbrev nBuf : Space → Nat
  | .hbm => 174
  | .vmem => 0
  | .smem => 0
  | _ => 0

abbrev hbmTy0_0 (i : Nat) : BufTy := match i % 128 with
  | 0 => ⟨S256x128000, .f32⟩
  | 1 => ⟨S256x32, .i32⟩
  | 2 => ⟨S256, .i32⟩
  | 3 => ⟨S256x32, .i32⟩
  | 4 => ⟨S256, .i32⟩
  | 5 => ⟨S1024, .i32⟩
  | 6 => ⟨S_, .i32⟩
  | 7 => ⟨S256x32, .i32⟩
  | 8 => ⟨S256x32, .i1⟩
  | 9 => ⟨S_, .i32⟩
  | 10 => ⟨S256x32, .i32⟩
  | 11 => ⟨S256x32, .i32⟩
  | 12 => ⟨S256x32, .i32⟩
  | 13 => ⟨S256x32x1, .i32⟩
  | 14 => ⟨S1, .i32⟩
  | 15 => ⟨S_, .i32⟩
  | 16 => ⟨S256x32x1, .i32⟩
  | 17 => ⟨S256x32x1, .i1⟩
  | 18 => ⟨S1x1x1, .i32⟩
  | 19 => ⟨S256x32x1, .i32⟩
  | 20 => ⟨S256x32x1, .i1⟩
  | 21 => ⟨S256x32x1, .i1⟩
  | 22 => ⟨S_, .i1⟩
  | 23 => ⟨S256x32, .i1⟩
  | 24 => ⟨S256x32, .f32⟩
  | 25 => ⟨S_, .f32⟩
  | 26 => ⟨S256x32, .f32⟩
  | 27 => ⟨S256x32, .f32⟩
  | 28 => ⟨S_, .i32⟩
  | 29 => ⟨S256x32, .i32⟩
  | 30 => ⟨S256x32, .i1⟩
  | 31 => ⟨S_, .i32⟩
  | 32 => ⟨S256x32, .i32⟩
  | 33 => ⟨S256x32, .i32⟩
  | 34 => ⟨S256x32, .i32⟩
  | 35 => ⟨S256x32x1, .i32⟩
  | 36 => ⟨S1, .i32⟩
  | 37 => ⟨S_, .i32⟩
  | 38 => ⟨S256x32x1, .i32⟩
  | 39 => ⟨S256x32x1, .i1⟩
  | 40 => ⟨S1x1x1, .i32⟩
  | 41 => ⟨S256x32x1, .i32⟩
  | 42 => ⟨S256x32x1, .i1⟩
  | 43 => ⟨S256x32x1, .i1⟩
  | 44 => ⟨S_, .i1⟩
  | 45 => ⟨S256x32, .i1⟩
  | 46 => ⟨S256x32, .f32⟩
  | 47 => ⟨S_, .f32⟩
  | 48 => ⟨S256x32, .f32⟩
  | 49 => ⟨S256x32, .f32⟩
  | 50 => ⟨S_, .f32⟩
  | 51 => ⟨S256x32, .f32⟩
  | 52 => ⟨S256x32, .f32⟩
  | 53 => ⟨S256x32, .f32⟩
  | 54 => ⟨S256x32, .f32⟩
  | 55 => ⟨S32, .i32⟩
  | 56 => ⟨S1x32, .i32⟩
  | 57 => ⟨S256x1, .i32⟩
  | 58 => ⟨S256x32, .i32⟩
  | 59 => ⟨S256x32, .i32⟩
  | 60 => ⟨S256x32, .i1⟩
  | 61 => ⟨S_, .f32⟩
  | 62 => ⟨S_, .f32⟩
  | 63 => ⟨S256x32, .f32⟩
  | 64 => ⟨S256x32, .f32⟩
  | 65 => ⟨S_, .f32⟩
  | 66 => ⟨S256, .f32⟩
  | 67 => ⟨S_, .i32⟩
  | 68 => ⟨S256, .i32⟩
  | 69 => ⟨S256, .i32⟩
  | 70 => ⟨S256, .f32⟩
  | 71 => ⟨S_, .i32⟩
  | 72 => ⟨S256, .i32⟩
  | 73 => ⟨S256, .i1⟩
  | 74 => ⟨S256, .f32⟩
  | 75 => ⟨S_, .f32⟩
  | 76 => ⟨S_, .f32⟩
  | 77 => ⟨S256, .f32⟩
  | 78 => ⟨S256, .f32⟩
  | 79 => ⟨S_, .f32⟩
  | 80 => ⟨S_, .f32⟩
  | 81 => ⟨S_, .f32⟩
  | 82 => ⟨S_, .f32⟩
  | 83 => ⟨S_, .f32⟩
  | 84 => ⟨S256x32, .f32⟩
  | 85 => ⟨S256x32, .f32⟩
  | 86 => ⟨S256x32, .f32⟩
  | 87 => ⟨S256x32, .f32⟩
  | 88 => ⟨S32, .i32⟩
  | 89 => ⟨S1x32, .i32⟩
  | 90 => ⟨S256x1, .i32⟩
  | 91 => ⟨S256x32, .i32⟩
  | 92 => ⟨S256x32, .i32⟩
  | 93 => ⟨S256x32, .i1⟩
  | 94 => ⟨S_, .f32⟩
  | 95 => ⟨S_, .f32⟩
  | 96 => ⟨S256x32, .f32⟩
  | 97 => ⟨S256x32, .f32⟩
  | 98 => ⟨S_, .f32⟩
  | 99 => ⟨S256, .f32⟩
  | 100 => ⟨S_, .i32⟩
  | 101 => ⟨S256, .i32⟩
  | 102 => ⟨S256, .i32⟩
  | 103 => ⟨S256, .f32⟩
  | 104 => ⟨S_, .i32⟩
  | 105 => ⟨S256, .i32⟩
  | 106 => ⟨S256, .i1⟩
  | 107 => ⟨S256, .f32⟩
  | 108 => ⟨S_, .f32⟩
  | 109 => ⟨S_, .f32⟩
  | 110 => ⟨S256, .f32⟩
  | 111 => ⟨S256, .f32⟩
  | 112 => ⟨S_, .f32⟩
  | 113 => ⟨S_, .f32⟩
  | 114 => ⟨S_, .f32⟩
  | 115 => ⟨S_, .f32⟩
  | 116 => ⟨S_, .f32⟩
  | 117 => ⟨S256x32, .f32⟩
  | 118 => ⟨S256x32, .f32⟩
  | 119 => ⟨S_, .f32⟩
  | 120 => ⟨S256x32, .f32⟩
  | 121 => ⟨S256x32, .f32⟩
  | 122 => ⟨S32, .i32⟩
  | 123 => ⟨S1x32, .i32⟩
  | 124 => ⟨S256x1, .i32⟩
  | 125 => ⟨S256x32, .i32⟩
  | 126 => ⟨S256x32, .i32⟩
  | 127 => ⟨S256x32, .i1⟩
  | _ => ⟨S256x128000, .f32⟩

abbrev hbmTy0_1 (i : Nat) : BufTy := match i % 128 with
  | 0 => ⟨S_, .f32⟩
  | 1 => ⟨S_, .f32⟩
  | 2 => ⟨S256x32, .f32⟩
  | 3 => ⟨S256x32, .f32⟩
  | 4 => ⟨S_, .f32⟩
  | 5 => ⟨S256, .f32⟩
  | 6 => ⟨S_, .i32⟩
  | 7 => ⟨S256, .i32⟩
  | 8 => ⟨S256, .i32⟩
  | 9 => ⟨S256, .f32⟩
  | 10 => ⟨S_, .i32⟩
  | 11 => ⟨S256, .i32⟩
  | 12 => ⟨S256, .i1⟩
  | 13 => ⟨S256, .f32⟩
  | 14 => ⟨S_, .f32⟩
  | 15 => ⟨S_, .f32⟩
  | 16 => ⟨S256, .f32⟩
  | 17 => ⟨S256, .f32⟩
  | 18 => ⟨S_, .f32⟩
  | 19 => ⟨S_, .f32⟩
  | 20 => ⟨S_, .f32⟩
  | 21 => ⟨S_, .f32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S256x1024, .f32⟩
  | 31 => ⟨S_, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S_, .f32⟩
  | 38 => ⟨S_, .f32⟩
  | 39 => ⟨S_, .f32⟩
  | 40 => ⟨S_, .f32⟩
  | 41 => ⟨S1, .f32⟩
  | 42 => ⟨S1, .f32⟩
  | 43 => ⟨S1, .f32⟩
  | 44 => ⟨S1, .f32⟩
  | 45 => ⟨S4, .f32⟩
  | _ => ⟨S256x128000, .f32⟩

abbrev hbmTy (i : Nat) : BufTy := match i / 128 with
  | 0 => hbmTy0_0 i
  | 1 => hbmTy0_1 i
  | _ => ⟨S256x128000, .f32⟩

abbrev bufTy : (tb : Table) → Fin (tcTables nBuf tb) → BufTy
  | .hbm, ⟨i, _⟩ => hbmTy i
  | _, _ => ⟨S256x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_0 : Ref sig .tc := ⟨.hbm, 61, rfl⟩
abbrev main_call2_v0 : Ref sig .tc := ⟨.hbm, 62, rfl⟩
abbrev main_call2_v1 : Ref sig .tc := ⟨.hbm, 63, rfl⟩
abbrev main_v12 : Ref sig .tc := ⟨.hbm, 64, rfl⟩
abbrev main_cst_1 : Ref sig .tc := ⟨.hbm, 65, rfl⟩
abbrev main_v13 : Ref sig .tc := ⟨.hbm, 66, rfl⟩
abbrev main_c : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_c_2 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_cst_3 : Ref sig .tc := ⟨.hbm, 75, rfl⟩
abbrev main_call3_v0 : Ref sig .tc := ⟨.hbm, 76, rfl⟩
abbrev main_call3_v1 : Ref sig .tc := ⟨.hbm, 77, rfl⟩
abbrev main_v20 : Ref sig .tc := ⟨.hbm, 78, rfl⟩
abbrev main_cst_4 : Ref sig .tc := ⟨.hbm, 79, rfl⟩
abbrev main_v21 : Ref sig .tc := ⟨.hbm, 80, rfl⟩
abbrev main_cst_5 : Ref sig .tc := ⟨.hbm, 81, rfl⟩
abbrev main_v22 : Ref sig .tc := ⟨.hbm, 82, rfl⟩
abbrev main_cst_6 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_cst_7 : Ref sig .tc := ⟨.hbm, 94, rfl⟩
abbrev main_call4_v0 : Ref sig .tc := ⟨.hbm, 95, rfl⟩
abbrev main_call4_v1 : Ref sig .tc := ⟨.hbm, 96, rfl⟩
abbrev main_v33 : Ref sig .tc := ⟨.hbm, 97, rfl⟩
abbrev main_cst_8 : Ref sig .tc := ⟨.hbm, 98, rfl⟩
abbrev main_v34 : Ref sig .tc := ⟨.hbm, 99, rfl⟩
abbrev main_c_9 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_c_10 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_11 : Ref sig .tc := ⟨.hbm, 108, rfl⟩
abbrev main_call5_v0 : Ref sig .tc := ⟨.hbm, 109, rfl⟩
abbrev main_call5_v1 : Ref sig .tc := ⟨.hbm, 110, rfl⟩
abbrev main_v41 : Ref sig .tc := ⟨.hbm, 111, rfl⟩
abbrev main_cst_12 : Ref sig .tc := ⟨.hbm, 112, rfl⟩
abbrev main_v42 : Ref sig .tc := ⟨.hbm, 113, rfl⟩
abbrev main_cst_13 : Ref sig .tc := ⟨.hbm, 114, rfl⟩
abbrev main_v43 : Ref sig .tc := ⟨.hbm, 115, rfl⟩
abbrev main_cst_14 : Ref sig .tc := ⟨.hbm, 116, rfl⟩
abbrev main_v44 : Ref sig .tc := ⟨.hbm, 117, rfl⟩
abbrev main_v45 : Ref sig .tc := ⟨.hbm, 118, rfl⟩
abbrev main_call6_cst : Ref sig .tc := ⟨.hbm, 119, rfl⟩
abbrev main_call6_v0 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_cst_15 : Ref sig .tc := ⟨.hbm, 128, rfl⟩
abbrev main_call7_v0 : Ref sig .tc := ⟨.hbm, 129, rfl⟩
abbrev main_call7_v1 : Ref sig .tc := ⟨.hbm, 130, rfl⟩
abbrev main_v53 : Ref sig .tc := ⟨.hbm, 131, rfl⟩
abbrev main_cst_16 : Ref sig .tc := ⟨.hbm, 132, rfl⟩
abbrev main_v54 : Ref sig .tc := ⟨.hbm, 133, rfl⟩
abbrev main_c_17 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_c_18 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_cst_19 : Ref sig .tc := ⟨.hbm, 142, rfl⟩
abbrev main_call8_v0 : Ref sig .tc := ⟨.hbm, 143, rfl⟩
abbrev main_call8_v1 : Ref sig .tc := ⟨.hbm, 144, rfl⟩
abbrev main_v61 : Ref sig .tc := ⟨.hbm, 145, rfl⟩
abbrev main_cst_20 : Ref sig .tc := ⟨.hbm, 146, rfl⟩
abbrev main_v62 : Ref sig .tc := ⟨.hbm, 147, rfl⟩
abbrev main_cst_21 : Ref sig .tc := ⟨.hbm, 148, rfl⟩
abbrev main_v63 : Ref sig .tc := ⟨.hbm, 149, rfl⟩
abbrev main_c_22 : Ref sig .tc := ⟨.hbm, 150, rfl⟩
abbrev main_v64 : Ref sig .tc := ⟨.hbm, 151, rfl⟩
abbrev main_v65 : Ref sig .tc := ⟨.hbm, 152, rfl⟩
abbrev main_c_23 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_24 : Ref sig .tc := ⟨.hbm, 159, rfl⟩
abbrev main_v71 : Ref sig .tc := ⟨.hbm, 160, rfl⟩
abbrev main_v72 : Ref sig .tc := ⟨.hbm, 161, rfl⟩
abbrev main_call9_cst : Ref sig .tc := ⟨.hbm, 162, rfl⟩
abbrev main_call9_v0 : Ref sig .tc := ⟨.hbm, 163, rfl⟩
abbrev main_v73 : Ref sig .tc := ⟨.hbm, 164, rfl⟩
abbrev main_cst_25 : Ref sig .tc := ⟨.hbm, 165, rfl⟩
abbrev main_v74 : Ref sig .tc := ⟨.hbm, 166, rfl⟩
abbrev main_cst_26 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩

abbrev nD : Nat := 1
abbrev τ : Topo := Topo.v7x

variable {F : FTy → Type} [FloatOps F]

class Facts₀ : Prop where
  bcast_S_S256x32 : S_.BroadcastsInDim S256x32 (![] : Fin 0 → Fin S256x32.rank)
  shapeCasts_S256x32_S256x32x1 : S256x32.ShapeCasts S256x32x1
  bcast_S_S256x32x1 : S_.BroadcastsInDim S256x32x1 (![] : Fin 0 → Fin S256x32x1.rank)
  bcast_S1_S1x1x1_2 : S1.BroadcastsInDim S1x1x1 (![2] : Fin 1 → Fin S1x1x1.rank)
  bcast_S1x1x1_S256x32x1_0_1_2 : S1x1x1.BroadcastsInDim S256x32x1 (![0, 1, 2] : Fin 3 → Fin S256x32x1.rank)
  reducesTo_S256x32x1_S256x32_d2 : S256x32x1.ReducesTo [2] S256x32
  h_S_ : 0 < S_.numel
  bcast_S32_S1x32_1 : S32.BroadcastsInDim S1x32 (![1] : Fin 1 → Fin S1x32.rank)
  bcast_S256_S256x1_0 : S256.BroadcastsInDim S256x1 (![0] : Fin 1 → Fin S256x1.rank)
  bcast_S1x32_S256x32_0_1 : S1x32.BroadcastsInDim S256x32 (![0, 1] : Fin 2 → Fin S256x32.rank)
  bcast_S256x1_S256x32_0_1 : S256x1.BroadcastsInDim S256x32 (![0, 1] : Fin 2 → Fin S256x32.rank)
  reducesTo_S256x32_S256_d1 : S256x32.ReducesTo [1] S256
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  bcast_S1024_S1024x1_0 : S1024.BroadcastsInDim S1024x1 (![0] : Fin 1 → Fin S1024x1.rank)
  bcast_S_S256x1024 : S_.BroadcastsInDim S256x1024 (![] : Fin 0 → Fin S256x1024.rank)
  reducesTo_S256x1024_S_d0_1 : S256x1024.ReducesTo [0, 1] S_
  bcast_S_S1 : S_.BroadcastsInDim S1 (![] : Fin 0 → Fin S1.rank)
  concatenates_S1_S1_S1_S1_S4_d0 : Shape.Concatenates [S1, S1, S1, S1] S4 0
  gather_S256x128000_S256x32x1_S256x32_n_1_0_0_1_2_11_wf : GatherDims.WF S256x128000 S256x32x1 S256x32 [] [1] [0] [1] [0] 2 ![1, 1]
  gather_S256x128000_S1024x1_S256x1024_0_1_n_n_1_1_2561_wf : GatherDims.WF S256x128000 S1024x1 S256x1024 [0] [1] [] [1] [] 1 ![256, 1]

variable [Facts₀]

def gather_S256x128000_S256x32x1_S256x32_n_1_0_0_1_2_11 : GatherDims S256x128000 S256x32x1 S256x32 where
  offsetDims := []
  collapsedSliceDims := [1]
  operandBatchingDims := [0]
  startIndicesBatchingDims := [0]
  startIndexMap := [1]
  indexVectorDim := 2
  sliceSizes := ![1, 1]
  wf := gather_S256x128000_S256x32x1_S256x32_n_1_0_0_1_2_11_wf
def gather_S256x128000_S1024x1_S256x1024_0_1_n_n_1_1_2561 : GatherDims S256x128000 S1024x1 S256x1024 where
  offsetDims := [0]
  collapsedSliceDims := [1]
  operandBatchingDims := []
  startIndicesBatchingDims := []
  startIndexMap := [1]
  indexVectorDim := 1
  sliceSizes := ![256, 1]
  wf := gather_S256x128000_S1024x1_S256x1024_0_1_n_n_1_1_2561_wf

class Facts : Prop extends Facts₀ where

variable [Facts]
-- ==== Proof.KI.Conds.lean ====
import proofs.«414535_j24696061952429_1_alg».proof.Proof.Gen.KernelIdeal.Launch
import proofs.«414535_j24696061952429_1_alg».proof.Proof.Gen.KernelIdeal.Skeleton
import proofs.«414535_j24696061952429_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

end Cert.KernelIdeal.Fr

end
-- ==== Proof.KI.Kit.lean ====
import proofs.«414535_j24696061952429_1_alg».proof.Proof.KI.Conds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

private theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

private theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
private theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
private theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 5).trans (((dats 0 c).arrAt_in 5 rfl _).trans ((hA c 5).trans (V_main_arg0 m c))),
     ((h c).1 0).trans (((dats 0 c).arrAt_in 0 rfl _).trans ((hA c 0).trans (V_main_arg1 m c))),
     ((h c).2 main_arg2 (Pipeline.mem_restRefs_of main_arg2 (by decide) (by decide))).trans (W_main_arg2 m dats c),
     ((h c).1 1).trans (((dats 0 c).arrAt_in 1 rfl _).trans ((hA c 1).trans (V_main_arg3 m c))),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel

abbrev VO0_6 : View sig .tc .vmem S128x1 .f32 := (Memref.whole cc0_stg6_0 : Memref sig .tc .vmem S128x1 .f32).view
abbrev VO0_7 : View sig .tc .vmem S128x1 .f32 := (Memref.whole cc0_stg7_0 : Memref sig .tc .vmem S128x1 .f32).view
abbrev VO0_8 : View sig .tc .vmem S128x1 .f32 := (Memref.whole cc0_stg8_0 : Memref sig .tc .vmem S128x1 .f32).view
abbrev VO0_9 : View sig .tc .vmem S128x1 .f32 := (Memref.whole cc0_stg9_0 : Memref sig .tc .vmem S128x1 .f32).view
abbrev ms0_0 (t : Fin cfg0.N) : Memref sig .tc .vmem S128x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1 .f32 := win0_9.stage (cfg0.slots t 9)
abbrev hs0_9 (t : Fin cfg0.N) : (ms0_9 t).IsWhole := hstage0_9 ((cfg0.slots t 9).cast nbuf0_9)
abbrev scM0_0 : Memref sig .tc .vmem S128x32 .f32 := Memref.whole cc0_scratch0
abbrev scM0_1 : Memref sig .tc .vmem S128x32 .f32 := Memref.whole cc0_scratch1
abbrev scM0_2 : Memref sig .tc .vmem S128x1024 .f32 := Memref.whole cc0_scratch2
abbrev VS0_0 : View sig .tc .vmem S128x32 .f32 := scM0_0.view
abbrev VS0_1 : View sig .tc .vmem S128x32 .f32 := scM0_1.view
abbrev VS0_2 : View sig .tc .vmem S128x1024 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
import proofs.«414535_j24696061952429_1_alg».proof.Proof.KI.Conds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S128x32 .i32) (harg2 : arg2.IsWhole) (arg3 : Memref sig .tc .vmem S128x32 .i32) (harg3 : arg3.IsWhole) (arg4 : Memref sig .tc .vmem S128x1 .i32) (harg4 : arg4.IsWhole) (arg5 : Memref sig .tc .vmem S128x1 .i32) (harg5 : arg5.IsWhole) (arg6 : Memref sig .tc .vmem S1x1024 .i32) (harg6 : arg6.IsWhole) (arg7 : Memref sig .tc .vmem S128x1024 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x32 .f32) (harg12 : arg12.IsWhole) (arg13 : Memref sig .tc .vmem S128x32 .f32) (harg13 : arg13.IsWhole) (arg14 : Memref sig .tc .vmem S128x1024 .f32) (harg14 : arg14.IsWhole) (hc0 : cond0_0 i) (hc1 : ¬cond0_1 i)
    (x0 : Vec F S128x32 .i32) (x1 : Vec F S128x32 .i32) (x2 : Vec F S128x1 .i32) (x3 : Vec F S128x1 .i32) (x4 : Vec F S1x1024 .i32) (x5 : Vec F S128x1024 .f32) :
    Σ' (L6 : List (View.Piece (Elt F) S128x1 .f32)) (L7 : List (View.Piece (Elt F) S128x1 .f32)) (L8 : List (View.Piece (Elt F) S128x1 .f32)) (L9 : List (View.Piece (Elt F) S128x1 .f32)) (LS0 : List (View.Piece (Elt F) S128x32 .f32)) (LS1 : List (View.Piece (Elt F) S128x32 .f32)), { LS2 : List (View.Piece (Elt F) S128x1024 .f32) //
      ∀ (xi6 : Vec F S128x1 .f32) (xi7 : Vec F S128x1 .f32) (xi8 : Vec F S128x1 .f32) (xi9 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, fun xi6 xi7 xi8 xi9 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunB.lean ====
import proofs.«414535_j24696061952429_1_alg».proof.Proof.KI.Conds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S128x32 .i32) (harg2 : arg2.IsWhole) (arg3 : Memref sig .tc .vmem S128x32 .i32) (harg3 : arg3.IsWhole) (arg4 : Memref sig .tc .vmem S128x1 .i32) (harg4 : arg4.IsWhole) (arg5 : Memref sig .tc .vmem S128x1 .i32) (harg5 : arg5.IsWhole) (arg6 : Memref sig .tc .vmem S1x1024 .i32) (harg6 : arg6.IsWhole) (arg7 : Memref sig .tc .vmem S128x1024 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x32 .f32) (harg12 : arg12.IsWhole) (arg13 : Memref sig .tc .vmem S128x32 .f32) (harg13 : arg13.IsWhole) (arg14 : Memref sig .tc .vmem S128x1024 .f32) (harg14 : arg14.IsWhole) (hc0 : ¬cond0_0 i) (hc1 : ¬cond0_1 i)
    (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32) :
    Σ' (L6 : List (View.Piece (Elt F) S128x1 .f32)) (L7 : List (View.Piece (Elt F) S128x1 .f32)) (L8 : List (View.Piece (Elt F) S128x1 .f32)) (L9 : List (View.Piece (Elt F) S128x1 .f32)) (LS0 : List (View.Piece (Elt F) S128x32 .f32)) (LS1 : List (View.Piece (Elt F) S128x32 .f32)), { LS2 : List (View.Piece (Elt F) S128x1024 .f32) //
      ∀ (xi6 : Vec F S128x1 .f32) (xi7 : Vec F S128x1 .f32) (xi8 : Vec F S128x1 .f32) (xi9 : Vec F S128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, fun xi6 xi7 xi8 xi9 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunC.lean ====
import proofs.«414535_j24696061952429_1_alg».proof.Proof.KI.Conds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S128x32 .i32) (harg2 : arg2.IsWhole) (arg3 : Memref sig .tc .vmem S128x32 .i32) (harg3 : arg3.IsWhole) (arg4 : Memref sig .tc .vmem S128x1 .i32) (harg4 : arg4.IsWhole) (arg5 : Memref sig .tc .vmem S128x1 .i32) (harg5 : arg5.IsWhole) (arg6 : Memref sig .tc .vmem S1x1024 .i32) (harg6 : arg6.IsWhole) (arg7 : Memref sig .tc .vmem S128x1024 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x32 .f32) (harg12 : arg12.IsWhole) (arg13 : Memref sig .tc .vmem S128x32 .f32) (harg13 : arg13.IsWhole) (arg14 : Memref sig .tc .vmem S128x1024 .f32) (harg14 : arg14.IsWhole) (hc0 : ¬cond0_0 i) (hc1 : cond0_1 i)
    (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32) :
    Σ' (L6 : List (View.Piece (Elt F) S128x1 .f32)) (L7 : List (View.Piece (Elt F) S128x1 .f32)) (L8 : List (View.Piece (Elt F) S128x1 .f32)) (L9 : List (View.Piece (Elt F) S128x1 .f32)) (LS0 : List (View.Piece (Elt F) S128x32 .f32)) (LS1 : List (View.Piece (Elt F) S128x32 .f32)), { LS2 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Fr

end
-- ==== Proof.KI.Frame.lean ====
import proofs.«414535_j24696061952429_1_alg».proof.Proof.KI.Kit
import proofs.«414535_j24696061952429_1_alg».proof.Proof.KI.RunA
import proofs.«414535_j24696061952429_1_alg».proof.Proof.KI.RunB
import proofs.«414535_j24696061952429_1_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S128x32 .i32) (harg2 : arg2.IsWhole) (arg3 : Memref sig .tc .vmem S128x32 .i32) (harg3 : arg3.IsWhole) (arg4 : Memref sig .tc .vmem S128x1 .i32) (harg4 : arg4.IsWhole) (arg5 : Memref sig .tc .vmem S128x1 .i32) (harg5 : arg5.IsWhole) (arg6 : Memref sig .tc .vmem S1x1024 .i32) (harg6 : arg6.IsWhole) (arg7 : Memref sig .tc .vmem S128x1024 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x32 .f32) (harg12 : arg12.IsWhole) (arg13 : Memref sig .tc .vmem S128x32 .f32) (harg13 : arg13.IsWhole) (arg14 : Memref sig .tc .vmem S128x1024 .f32) (harg14 : arg14.IsWhole)

section
variable (hc0 : cond0_0 i) (hc1 : ¬cond0_1 i) (x0 : Vec F S128x32 .i32) (x1 : Vec F S128x32 .i32) (x2 : Vec F S128x1 .i32) (x3 : Vec F S128x1 .i32) (x4 : Vec F S1x1024 .i32) (x5 : Vec F S128x1024 .f32)

def out0_A_6 : Vec F S128x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).1)

def out0_A_7 : Vec F S128x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.1)

def out0_A_8 : Vec F S128x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.1)

def out0_A_9 : Vec F S128x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.1)

theorem scover0_A_0 (y : S128x32.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1 S128x32.size (by sl_kernel_rfl) y

def sout0_A_0 : Vec F S128x32 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.1)

theorem scover0_A_1 (y : S128x32.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1 S128x32.size (by sl_kernel_rfl) y

def sout0_A_1 : Vec F S128x32 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.1)

theorem scover0_A_2 (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1 S128x1024.size (by sl_kernel_rfl) y

def sout0_A_2 : Vec F S128x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.2.2.2.2.2.1)

end

section
variable (hc0 : ¬cond0_0 i) (hc1 : ¬cond0_1 i) (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32)

def out0_B_6 : Vec F S128x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).1)

def out0_B_7 : Vec F S128x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.1)

def out0_B_8 : Vec F S128x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.1)

def out0_B_9 : Vec F S128x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.1)

theorem scover0_B_0 (y : S128x32.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1 S128x32.size (by sl_kernel_rfl) y

def sout0_B_0 : Vec F S128x32 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1)

theorem scover0_B_1 (y : S128x32.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1 S128x32.size (by sl_kernel_rfl) y

def sout0_B_1 : Vec F S128x32 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1)

theorem scover0_B_2 (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1 S128x1024.size (by sl_kernel_rfl) y

def sout0_B_2 : Vec F S128x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1)

end

section
variable (hc0 : ¬cond0_0 i) (hc1 : cond0_1 i) (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32)

theorem cover0_C_6 (y : S128x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).1 S128x1.size (by sl_kernel_rfl) y

def out0_C_6 : Vec F S128x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).1)

theorem cover0_C_7 (y : S128x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.1 S128x1.size (by sl_kernel_rfl) y

def out0_C_7 : Vec F S128x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.1)

theorem cover0_C_8 (y : S128x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.1 S128x1.size (by sl_kernel_rfl) y

def out0_C_8 : Vec F S128x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.1)

theorem cover0_C_9 (y : S128x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.1 S128x1.size (by sl_kernel_rfl) y

def out0_C_9 : Vec F S128x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.1)

theorem scover0_C_0 (y : S128x32.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1 S128x32.size (by sl_kernel_rfl) y

def sout0_C_0 : Vec F S128x32 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.1)

theorem scover0_C_1 (y : S128x32.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1 S128x32.size (by sl_kernel_rfl) y

def sout0_C_1 : Vec F S128x32 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.1)

theorem scover0_C_2 (y : S128x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1 S128x1024.size (by sl_kernel_rfl) y

def sout0_C_2 : Vec F S128x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2).2.2.2.2.2.2.1)

end

end

def outsA (c : Dev nD) (t : Fin cfg0.N) (hc0 : cond0_0 (grid0.coords t)) (hc1 : ¬cond0_1 (grid0.coords t)) : Vec F S128x1 .f32 × Vec F S128x1 .f32 × Vec F S128x1 .f32 × Vec F S128x1 .f32 × Vec F S128x32 .f32 × Vec F S128x32 .f32 × Vec F S128x1024 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t))

def outsB (c : Dev nD) (t : Fin cfg0.N) (hc0 : ¬cond0_0 (grid0.coords t)) (hc1 : ¬cond0_1 (grid0.coords t)) (xs0 : Vec F S128x32 .f32) (xs1 : Vec F S128x32 .f32) (xs2 : Vec F S128x1024 .f32) : Vec F S128x1 .f32 × Vec F S128x1 .f32 × Vec F S128x1 .f32 × Vec F S128x1 .f32 × Vec F S128x32 .f32 × Vec F S128x32 .f32 × Vec F S128x1024 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2)

def outsC (c : Dev nD) (t : Fin cfg0.N) (hc0 : ¬cond0_0 (grid0.coords t)) (hc1 : cond0_1 (grid0.coords t)) (xs0 : Vec F S128x32 .f32) (xs1 : Vec F S128x32 .f32) (xs2 : Vec F S128x1024 .f32) : Vec F S128x1 .f32 × Vec F S128x1 .f32 × Vec F S128x1 .f32 × Vec F S128x1 .f32 × Vec F S128x32 .f32 × Vec F S128x32 .f32 × Vec F S128x1024 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2,
      sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2)

/-- What the four result blocks and the three accumulators hold after each grid point: the case its tile coordinate selects, the accumulators coming in at what the point before left. -/
def outsAt0 (c : Dev nD) : (n : ℕ) → n < cfg0.N → Vec F S128x1 .f32 × Vec F S128x1 .f32 × Vec F S128x1 .f32 × Vec F S128x1 .f32 × Vec F S128x32 .f32 × Vec F S128x32 .f32 × Vec F S128x1024 .f32
  | 0, hn => outsA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 125 = 0 then
      if h1 : (n + 1) % 125 = 124 then
        False.elim (by omega)
      else
        outsA m c ⟨n + 1, hn⟩ ((hcond0_0 ⟨n + 1, hn⟩).mpr h0) (fun h => h1 ((hcond0_1 ⟨n + 1, hn⟩).mp h))
    else
      if h1 : (n + 1) % 125 = 124 then
        outsC m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.1 (outsAt0 c n (Nat.lt_of_succ_lt hn)).2.2.2.2.2.2
      else
        outsB m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.1 (outsAt0 c n (Nat.lt_of_succ_lt hn)).2.2.2.2.2.2

theorem outsAt0_A (c : Dev nD) (t : Fin cfg0.N) (h0 : t.val % 125 = 0) (h1 : ¬t.val % 125 = 124) :
    outsAt0 m c t.val t.isLt = outsA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 m c t.val t.isLt = outsB m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 m c t.val t.isLt = outsC m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 32000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 250 := lt_of_lt_of_eq t.isLt (show cfg0.N = 250 from N_0)
  by_cases h0 : t.val % 125 = 0
  · by_cases h1 : t.val % 125 = 124
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1, outsA]
      unfold sout0_A_0 sout0_A_1 sout0_A_2; (try dsimp only)
      by_cases hz : t.val = 0
      ·
        rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        iexists _; iexact H9
      ·
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        iexists _; iexact H9
  · by_cases h1 : t.val % 125 = 124
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [outsAt0_C m c t h0 h1, outsC]
      unfold out0_C_6 out0_C_7 out0_C_8 out0_C_9 sout0_C_0 sout0_C_1 sout0_C_2; (try dsimp only)
      by_cases hz : t.val = 0
      · exfalso; omega
      · skip
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B m c t h0 h1, outsB]
      unfold sout0_B_0 sout0_B_1 sout0_B_2; (try dsimp only)
      by_cases hz : t.val = 0
      · exfalso; omega
      · skip
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 250 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KI.Steps.lean ====
import proofs.«414535_j24696061952429_1_alg».proof.Proof.Gen.KernelIdeal.Skeleton
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

def koStep (i : grid0.Coords) (x0 : Vec F S128x32 .i32) (x5 : Vec F S128x1024 .f32) (xs0 : Vec F S128x32 .f32) : Vec F S128x32 .f32 :=
  k0_pay57 x5 (k0_pay15 i) (k0_pay17 i x5 (View.ld x0 (Rect.unit ![0, 0] ![128, 1] inb_S128x32_S128x1_0_0)))
        (k0_pay18 i x5 (View.ld x0 (Rect.unit ![0, 1] ![128, 1] inb_S128x32_S128x1_0_1)))
        (k0_pay19 i x5 (View.ld x0 (Rect.unit ![0, 2] ![128, 1] inb_S128x32_S128x1_0_2)))
        (k0_pay22 x5 (k0_pay20 (View.ld x0 (Rect.unit ![0, 3] ![128, 1] inb_S128x32_S128x1_0_3))) (k0_pay21 i))
        (k0_pay23 x5 (k0_pay15 i) (View.ld x0 (Rect.unit ![0, 4] ![128, 1] inb_S128x32_S128x1_0_4)))
        (k0_pay24 x5 (k0_pay15 i) (View.ld x0 (Rect.unit ![0, 5] ![128, 1] inb_S128x32_S128x1_0_5)))
        (k0_pay25 x5 (k0_pay15 i) (View.ld x0 (Rect.unit ![0, 6] ![128, 1] inb_S128x32_S128x1_0_6)))
        (k0_pay26 x5 (k0_pay15 i) (View.ld x0 (Rect.unit ![0, 7] ![128, 1] inb_S128x32_S128x1_0_7)))
        (k0_pay29 x5 (k0_pay27 (View.ld x0 (Rect.unit ![0, 8] ![128, 1] inb_S128x32_S128x1_0_8))) (k0_pay28 (k0_pay15 i)))
        (k0_pay30 x5 (k0_pay15 i) (View.ld x0 (Rect.unit ![0, 9] ![128, 1] inb_S128x32_S128x1_0_9)))
        (k0_pay31 x5 (k0_pay15 i) (View.ld x0 (Rect.unit ![0, 10] ![128, 1] inb_S128x32_S128x1_0_10)))
        (k0_pay32 x5 (k0_pay15 i) (View.ld x0 (Rect.unit ![0, 11] ![128, 1] inb_S128x32_S128x1_0_11)))
        (k0_pay33 x5 (k0_pay15 i) (View.ld x0 (Rect.unit ![0, 12] ![128, 1] inb_S128x32_S128x1_0_12)))
        (k0_pay36 x5 (k0_pay34 (View.ld x0 (Rect.unit ![0, 13] ![128, 1] inb_S128x32_S128x1_0_13)))
          (k0_pay35 (k0_pay15 i)))
        (k0_pay37 x5 (k0_pay15 i) (View.ld x0 (Rect.unit ![0, 14] ![128, 1] inb_S128x32_S128x1_0_14)))
        (k0_pay38 x5 (k0_pay15 i) (View.ld x0 (Rect.unit ![0, 15] ![128, 1] inb_S128x32_S128x1_0_15)))
        (k0_pay39 x5 (k0_pay15 i) (View.ld x0 (Rect.unit ![0, 16] ![128, 1] inb_S128x32_S128x1_0_16)))
        (k0_pay40 x5 (k0_pay15 i) (View.ld x0 (Rect.unit ![0, 17] ![128, 1] inb_S128x32_S128x1_0_17)))
        (k0_pay43 x5 (k0_pay41 (View.ld x0 (Rect.unit ![0, 18] ![128, 1] inb_S128x32_S128x1_0_18)))
          (k0_pay42 (k0_pay15 i)))
        (k0_pay44 x5 (k0_pay15 i) (View.ld x0 (Rect.unit ![0, 19] ![128, 1] inb_S128x32_S128x1_0_19)))
        (k0_pay45 x5 (k0_pay15 i) (View.ld x0 (Rect.unit ![0, 20] ![128, 1] inb_S128x32_S128x1_0_20)))
        (k0_pay46 x5 (k0_pay15 i) (View.ld x0 (Rect.unit ![0, 21] ![128, 1] inb_S128x32_S128x1_0_21)))
        (k0_pay47 x5 (k0_pay15 i) (View.ld x0 (Rect.unit ![0, 22] ![128, 1] inb_S128x32_S128x1_0_22)))
        (k0_pay50 x5 (k0_pay48 (View.ld x0 (Rect.unit ![0, 23] ![128, 1] inb_S128x32_S128x1_0_23)))
          (k0_pay49 (k0_pay15 i)))
        (k0_pay51 x5 (k0_pay15 i) (View.ld x0 (Rect.unit ![0, 24] ![128, 1] inb_S128x32_S128x1_0_24)))
        (k0_pay52 x5 (k0_pay15 i) (View.ld x0 (Rect.unit ![0, 25] ![128, 1] inb_S128x32_S128x1_0_25)))
        (k0_pay53 x5 (k0_pay15 i) (View.ld x0 (Rect.unit ![0, 26] ![128, 1] inb_S128x32_S128x1_0_26)))
        (k0_pay54 x5 (k0_pay15 i) (View.ld x0 (Rect.unit ![0, 27] ![128, 1] inb_S128x32_S128x1_0_27)))
        (k0_pay55 (View.ld x0 (Rect.unit ![0, 28] ![128, 1] inb_S128x32_S128x1_0_28))) (k0_pay56 (k0_pay15 i))
        (View.ld x0 (Rect.unit ![0, 29] ![128, 1] inb_S128x32_S128x1_0_29))
        (View.ld x0 (Rect.unit ![0, 30] ![128, 1] inb_S128x32_S128x1_0_30))
        (View.ld x0 (Rect.unit ![0, 31] ![128, 1] inb_S128x32_S128x1_0_31)) xs0

def enStep (i : grid0.Coords) (x1 : Vec F S128x32 .i32) (x5 : Vec F S128x1024 .f32) (xs1 : Vec F S128x32 .f32) : Vec F S128x32 .f32 :=
  k0_pay98 xs1
        (k0_pay97 (k0_pay59 x5 (k0_pay58 (k0_pay15 i) (View.ld x1 (Rect.unit ![0, 0] ![128, 1] inb_S128x32_S128x1_0_0))))
          (k0_pay60 x5 (k0_pay15 i) (View.ld x1 (Rect.unit ![0, 1] ![128, 1] inb_S128x32_S128x1_0_1)))
          (k0_pay61 x5 (k0_pay15 i) (View.ld x1 (Rect.unit ![0, 2] ![128, 1] inb_S128x32_S128x1_0_2)))
          (k0_pay62 x5 (k0_pay15 i) (View.ld x1 (Rect.unit ![0, 3] ![128, 1] inb_S128x32_S128x1_0_3)))
          (k0_pay63 x5 (k0_pay15 i) (View.ld x1 (Rect.unit ![0, 4] ![128, 1] inb_S128x32_S128x1_0_4)))
          (k0_pay65 x5 (k0_pay64 (k0_pay15 i) (View.ld x1 (Rect.unit ![0, 5] ![128, 1] inb_S128x32_S128x1_0_5))))
          (k0_pay66 x5 (k0_pay15 i) (View.ld x1 (Rect.unit ![0, 6] ![128, 1] inb_S128x32_S128x1_0_6)))
          (k0_pay67 x5 (k0_pay15 i) (View.ld x1 (Rect.unit ![0, 7] ![128, 1] inb_S128x32_S128x1_0_7)))
          (k0_pay68 x5 (k0_pay15 i) (View.ld x1 (Rect.unit ![0, 8] ![128, 1] inb_S128x32_S128x1_0_8)))
          (k0_pay69 x5 (k0_pay15 i) (View.ld x1 (Rect.unit ![0, 9] ![128, 1] inb_S128x32_S128x1_0_9)))
          (k0_pay71 x5 (k0_pay70 (k0_pay15 i) (View.ld x1 (Rect.unit ![0, 10] ![128, 1] inb_S128x32_S128x1_0_10))))
          (k0_pay72 x5 (k0_pay15 i) (View.ld x1 (Rect.unit ![0, 11] ![128, 1] inb_S128x32_S128x1_0_11)))
          (k0_pay73 x5 (k0_pay15 i) (View.ld x1 (Rect.unit ![0, 12] ![128, 1] inb_S128x32_S128x1_0_12)))
          (k0_pay74 x5 (k0_pay15 i) (View.ld x1 (Rect.unit ![0, 13] ![128, 1] inb_S128x32_S128x1_0_13)))
          (k0_pay75 x5 (k0_pay15 i) (View.ld x1 (Rect.unit ![0, 14] ![128, 1] inb_S128x32_S128x1_0_14)))
          (k0_pay77 x5 (k0_pay76 (k0_pay15 i) (View.ld x1 (Rect.unit ![0, 15] ![128, 1] inb_S128x32_S128x1_0_15))))
          (k0_pay78 x5 (k0_pay15 i) (View.ld x1 (Rect.unit ![0, 16] ![128, 1] inb_S128x32_S128x1_0_16)))
          (k0_pay79 x5 (k0_pay15 i) (View.ld x1 (Rect.unit ![0, 17] ![128, 1] inb_S128x32_S128x1_0_17)))
          (k0_pay80 x5 (k0_pay15 i) (View.ld x1 (Rect.unit ![0, 18] ![128, 1] inb_S128x32_S128x1_0_18)))
          (k0_pay81 x5 (k0_pay15 i) (View.ld x1 (Rect.unit ![0, 19] ![128, 1] inb_S128x32_S128x1_0_19)))
          (k0_pay83 x5 (k0_pay82 (k0_pay15 i) (View.ld x1 (Rect.unit ![0, 20] ![128, 1] inb_S128x32_S128x1_0_20))))
          (k0_pay84 x5 (k0_pay15 i) (View.ld x1 (Rect.unit ![0, 21] ![128, 1] inb_S128x32_S128x1_0_21)))
          (k0_pay85 x5 (k0_pay15 i) (View.ld x1 (Rect.unit ![0, 22] ![128, 1] inb_S128x32_S128x1_0_22)))
          (k0_pay86 x5 (k0_pay15 i) (View.ld x1 (Rect.unit ![0, 23] ![128, 1] inb_S128x32_S128x1_0_23)))
          (k0_pay87 x5 (k0_pay15 i) (View.ld x1 (Rect.unit ![0, 24] ![128, 1] inb_S128x32_S128x1_0_24)))
          (k0_pay89 x5 (k0_pay88 (k0_pay15 i) (View.ld x1 (Rect.unit ![0, 25] ![128, 1] inb_S128x32_S128x1_0_25))))
          (k0_pay90 x5 (k0_pay15 i) (View.ld x1 (Rect.unit ![0, 26] ![128, 1] inb_S128x32_S128x1_0_26)))
          (k0_pay91 x5 (k0_pay15 i) (View.ld x1 (Rect.unit ![0, 27] ![128, 1] inb_S128x32_S128x1_0_27)))
          (k0_pay92 x5 (k0_pay15 i) (View.ld x1 (Rect.unit ![0, 28] ![128, 1] inb_S128x32_S128x1_0_28)))
          (k0_pay93 x5 (k0_pay15 i) (View.ld x1 (Rect.unit ![0, 29] ![128, 1] inb_S128x32_S128x1_0_29)))
          (k0_pay95 x5 (k0_pay94 (k0_pay15 i) (View.ld x1 (Rect.unit ![0, 30] ![128, 1] inb_S128x32_S128x1_0_30))))
          (k0_pay96 x5 (k0_pay15 i) (View.ld x1 (Rect.unit ![0, 31] ![128, 1] inb_S128x32_S128x1_0_31))))

def negStep (i : grid0.Coords) (x4 : Vec F S1x1024 .i32) (x5 : Vec F S128x1024 .f32) (xs2 : Vec F S128x1024 .f32) : Vec F S128x1024 .f32 :=
  k0_pay1 (k0_pay99 x5 (k0_pay16 i) x4 xs2)

def selfFin (acc : Vec F S128x32 .f32) (len : Vec F S128x1 .i32) : Vec F S128x1 .f32 := k0_pay6 acc len
def targetFin (acc : Vec F S128x32 .f32) (len : Vec F S128x1 .i32) : Vec F S128x1 .f32 :=
  k0_pay3 (k0_pay7 len) (k0_pay8 len) (k0_pay9 acc)
def marginFin (acc : Vec F S128x32 .f32) (len : Vec F S128x1 .i32) : Vec F S128x1 .f32 :=
  k0_pay4 (k0_pay7 len) (k0_pay8 len) (k0_pay10 acc) k0_pay11
def negFin (acc : Vec F S128x1024 .f32) : Vec F S128x1 .f32 := k0_pay5 acc

end Cert.KernelIdeal.Fr

end
-- ==== Proof.KI.Pieces.lean ====
import proofs.«414535_j24696061952429_1_alg».proof.Proof.KI.Frame
import proofs.«414535_j24696061952429_1_alg».proof.Proof.KI.Steps
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

theorem hz2 : (![0, 0] : Fin 2 → Nat) = fun _ => 0 := funext fun a => by fin_cases a <;> rfl

section
variable (c : Dev nD) (i : grid0.Coords) (arg2 : Memref sig .tc .vmem S128x32 .i32) (harg2 : arg2.IsWhole) (arg3 : Memref sig .tc .vmem S128x32 .i32) (harg3 : arg3.IsWhole) (arg4 : Memref sig .tc .vmem S128x1 .i32) (harg4 : arg4.IsWhole) (arg5 : Memref sig .tc .vmem S128x1 .i32) (harg5 : arg5.IsWhole) (arg6 : Memref sig .tc .vmem S1x1024 .i32) (harg6 : arg6.IsWhole) (arg7 : Memref sig .tc .vmem S128x1024 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S128x32 .f32) (harg12 : arg12.IsWhole) (arg13 : Memref sig .tc .vmem S128x32 .f32) (harg13 : arg13.IsWhole) (arg14 : Memref sig .tc .vmem S128x1024 .f32) (harg14 : arg14.IsWhole)

section
variable (hc0 : ¬cond0_0 i) (hc1 : ¬cond0_1 i) (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32)

set_option maxHeartbeats 4000000 in
/-- Each case stores one covering piece per buffer it writes, so reading its pieces back gives that piece's value: one step applied to the incoming blocks. -/
theorem sout0_B_0_eq :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = koStep i x0 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_B_1_eq :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = enStep i x1 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_B_2_eq :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = negStep i x4 x5 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

end

section
variable (hc0 : ¬cond0_0 i) (hc1 : cond0_1 i) (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32)

set_option maxHeartbeats 4000000 in
theorem sout0_C_0_eq :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = koStep i x0 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_C_1_eq :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = enStep i x1 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_C_2_eq :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = negStep i x4 x5 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

end

section
variable (hc0 : cond0_0 i) (hc1 : ¬cond0_1 i) (x0 : Vec F S128x32 .i32) (x1 : Vec F S128x32 .i32) (x2 : Vec F S128x1 .i32) (x3 : Vec F S128x1 .i32) (x4 : Vec F S1x1024 .i32) (x5 : Vec F S128x1024 .f32)

set_option maxHeartbeats 4000000 in
theorem sout0_A_0_eq :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = koStep i x0 x5 (k0_pay12 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S128x32) hz2, View.readCov_unit_zero (S := S128x32) _ hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_A_1_eq :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = enStep i x1 x5 (k0_pay13 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S128x32) hz2, View.readCov_unit_zero (S := S128x32) _ hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

set_option maxHeartbeats 4000000 in
theorem sout0_A_2_eq :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = negStep i x4 x5 (k0_pay14 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S128x1024) hz2, View.readCov_unit_zero (S := S128x1024) _ hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, shapeCast_self]
  rfl

end

section
variable (hc0 : ¬cond0_0 i) (hc1 : cond0_1 i) (x0 : Vec F S128x32 .i32) (x1 : Vec F S128x32 .i32) (x2 : Vec F S128x1 .i32) (x3 : Vec F S128x1 .i32) (x4 : Vec F S1x1024 .i32) (x5 : Vec F S128x1024 .f32) (xs0 : Vec F S128x32 .f32) (xs1 : Vec F S128x32 .f32) (xs2 : Vec F S128x1024 .f32)

set_option maxHeartbeats 4000000 in
theorem out0_C_6_eq :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = selfFin (koStep i x0 x5 xs0) x2 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, View.readCov_unit_zero (S := S128x32) _ hz2, View.readCov_unit_zero (S := S128x1024) _ hz2, shapeCast_self]
  rfl

set_option maxHeartbeats 4000000 in
theorem out0_C_7_eq :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = targetFin (enStep i x1 x5 xs1) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, View.readCov_unit_zero (S := S128x32) _ hz2, View.readCov_unit_zero (S := S128x1024) _ hz2, shapeCast_self]
  rfl

set_option maxHeartbeats 4000000 in
theorem out0_C_8_eq :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = marginFin (enStep i x1 x5 xs1) x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, View.readCov_unit_zero (S := S128x32) _ hz2, View.readCov_unit_zero (S := S128x1024) _ hz2, shapeCast_self]
  rfl

set_option maxHeartbeats 4000000 in
theorem out0_C_9_eq :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = negFin (negStep i x4 x5 xs2) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg12.read_unread, harg13.read_unread, harg14.read_unread, View.ld_unit_zero (S := S128x32) hz2, View.ld_unit_zero (S := S128x1024) hz2, View.ld_unit_zero (S := S1x1024) hz2, View.ld_unit_zero (S := S128x1) hz2, View.readCov_unit_zero (S := S128x32) _ hz2, View.readCov_unit_zero (S := S128x1024) _ hz2, shapeCast_self]
  rfl

end

end

end Cert.KernelIdeal.Fr

end
-- ==== Proof.Spec.lean ====
import Idealize.ShloMosaic.PureOps.Ideal
import Idealize.ShloMosaic.Lib.ValueIdx

noncomputable section

open scoped BigOperators

namespace Cert.TermLoss

open Idealize.ShloMosaic Idealize.ShloMosaic.ValueIdx

/-- The table's entry in row b at the column the word w names, read unsigned; 0 when w names no column. -/
def pick (x : (⟨2, ![256, 128000]⟩ : Shape).Idx → EReal) (b : Fin 256) (w : BitVec 32) : EReal :=
  if h : w.toNat < 128000 then x (ix2 b ⟨w.toNat, h⟩) else 0

def eps : EReal := Ideal.ofBits .f32 0x322BCC77#32
def two : EReal := Ideal.ofBits .f32 0x40000000#32
def tenth : EReal := Ideal.ofBits .f32 0x3DCCCCCD#32

def nlog (v : EReal) : EReal := -(Ideal.log (v + eps))
def hinge (v : EReal) : EReal := max (two - v) 0
def over (v : EReal) : EReal := max (v - tenth) 0

/-- The mean of the first n of 32 values; 0 when n is not positive. -/
def rowMean (n : BitVec 32) (f : Fin 32 → EReal) : EReal :=
  Scalar.select (IntOp.cmpi .sgt n 0#32)
    (Ideal.div (∑ l : Fin 32, Scalar.select (IntOp.cmpi .slt (BitVec.ofNat 32 l.val) n) (f l) 0)
      (((IntOp.maxsi n 1#32).toInt : ℝ) : EReal))
    0

def batchMean (g : Fin 256 → EReal) : EReal := Ideal.div (∑ b : Fin 256, g b) (Ideal.ofBits .f32 0x43800000#32)

def selfLoss (x : (⟨2, ![256, 128000]⟩ : Shape).Idx → EReal) (ko : Fin 256 → Fin 32 → BitVec 32) (klen : Fin 256 → BitVec 32) : EReal :=
  batchMean fun b => rowMean (klen b) fun l => nlog (pick x b (ko b l))
def targetLoss (x : (⟨2, ![256, 128000]⟩ : Shape).Idx → EReal) (en : Fin 256 → Fin 32 → BitVec 32) (elen : Fin 256 → BitVec 32) : EReal :=
  batchMean fun b => rowMean (elen b) fun l => nlog (pick x b (en b l))
def marginLoss (x : (⟨2, ![256, 128000]⟩ : Shape).Idx → EReal) (en : Fin 256 → Fin 32 → BitVec 32) (elen : Fin 256 → BitVec 32) : EReal :=
  batchMean fun b => rowMean (elen b) fun l => hinge (pick x b (en b l))
def negLoss (x : (⟨2, ![256, 128000]⟩ : Shape).Idx → EReal) (nt : Fin 1024 → BitVec 32) : EReal :=
  Ideal.div (∑ b : Fin 256, ∑ n : Fin 1024, over (pick x b (nt n))) (Ideal.ofBits .f32 0x48800000#32)
def negLossByRows (x : (⟨2, ![256, 128000]⟩ : Shape).Idx → EReal) (nt : Fin 1024 → BitVec 32) : EReal :=
  batchMean fun b => Ideal.div (∑ n : Fin 1024, over (pick x b (nt n))) (Ideal.ofBits .f32 0x44800000#32)

def losses (a0 a1 a2 a3 : EReal) : (⟨1, ![4]⟩ : Shape).Idx → EReal := fun j => ![a0, a1, a2, a3] (j 0)

end Cert.TermLoss

end
-- ==== Proof.LibKeepdims.lean ====
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

theorem exp_apply {s : Shape} {φ : FTy} (x : FVec Ideal s φ) (i : s.Idx) : exp x i = Ideal.exp (x i) := rfl

theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KI.StepValues.lean ====
import proofs.«414535_j24696061952429_1_alg».proof.Proof.KI.Steps
import proofs.«414535_j24696061952429_1_alg».proof.Proof.Spec
import proofs.«414535_j24696061952429_1_alg».proof.Proof.LibKeepdims
import proofs.«414535_j24696061952429_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Fr

open Cert.KernelIdeal Cert.KernelIdeal.Gen Idealize.ShloMosaic Idealize.ShloMosaic.ValueIdx

/-- Lane q's word: 1024 times the tile number, plus q. -/
def laneWord (i : grid0.Coords) (q : Fin 1024) : BitVec 32 :=
  IntOp.addi (IntOp.muli (BitVec.ofNat 32 (i 1).val) 1024#32) (BitVec.ofNat 32 q.val)

theorem pay15_lane (i : grid0.Coords) (q : Fin 1024) : k0_pay15 i (ix2 0 q) = laneWord i q :=
  congrArg (IntOp.addi (IntOp.muli (BitVec.ofNat 32 (i 1).val) 1024#32))
    (iota_single_apply .tc S1x1024 32 1 iota_S1x1024_d1_w32 (ix2 0 q))

theorem pay16_lane (i : grid0.Coords) (q : Fin 1024) : k0_pay16 i (ix2 q 0) = laneWord i q :=
  congrArg (IntOp.addi (IntOp.muli (BitVec.ofNat 32 (i 1).val) 1024#32))
    (iota_single_apply .tc S1024x1 32 0 iota_S1024x1_d0_w32 (ix2 q 0))

/-- The cast to a column and the sum along the rows are each read pointwise, so together they give row p's sum. -/
theorem laneSum_apply {b : ℕ} (v : FVec Ideal ⟨2, ![128, b]⟩ .f32) (h : (⟨2, ![128, b]⟩ : Shape).Reduces [1] S128) (p : Fin 128) :
    (shapeCast S128x1 (multiReduction (F := Ideal) .add [1] S128 v 0x00000000#32 h (.inl rfl) rfl) shapeCasts_S128_S128x1 : FVec Ideal S128x1 .f32) (ix2 p 0)
      = ∑ q : Fin b, v (ix2 p q) :=
  (shapeCast_a_a1_apply _ shapeCasts_S128_S128x1 p 0).trans (multiReduction_add_rows_apply v _ h (.inl rfl) rfl p)

theorem inb_col (l : Fin 32) (a : Fin 2) : (![0, l.val] : Fin 2 → Nat) a + (![128, 1] : Fin 2 → Nat) a ≤ S128x32.size a := by
  match a with
  | ⟨0, _⟩ => exact Nat.le_refl 128
  | ⟨1, _⟩ => exact l.isLt

/-- Column l of a [128, 32] block of ids. -/
def idCol (x : Vec Ideal S128x32 .i32) (l : Fin 32) : Vec Ideal S128x1 .i32 :=
  View.ld x (Rect.unit ![0, l.val] ![128, 1] (inb_col l))

theorem idCol_apply (x : Vec Ideal S128x32 .i32) (l : Fin 32) (p : Fin 128) : idCol x l (ix2 p 0) = x (ix2 p l) := by
  refine congrArg x (funext fun a => Fin.ext ?_)
  match a with
  | ⟨0, _⟩ => show 0 + 1 * p.val = p.val; omega
  | ⟨1, _⟩ => show l.val + 1 * 0 = l.val; omega

/-- One position's column: per row, the sum over the lanes of the tile's entries whose lane word equals the row's id. -/
def col (i : grid0.Coords) (x5 : Vec Ideal S128x1024 .f32) (ids : Vec Ideal S128x1 .i32) : FVec Ideal S128x1 .f32 :=
  shapeCast S128x1 (multiReduction (F := Ideal) .add [1] S128 (select (cmpi .eq (broadcastTo S128x1024 ids broadcasts_S128x1_S128x1024) (broadcastTo S128x1024 (k0_pay15 i) broadcasts_S1x1024_S128x1024)) x5 (broadcast S128x1024 (Scalar.ofBits (F := Ideal) .f32 0x00000000#32))) 0x00000000#32 reduces_S128x1024_S128 (.inl rfl) rfl) shapeCasts_S128_S128x1

/-- Each broadcast reads its source at the matching coordinate, so the mask at (p, q) compares row p's id with lane q's word. -/
theorem col_apply (i : grid0.Coords) (x5 : Vec Ideal S128x1024 .f32) (ids : Vec Ideal S128x1 .i32) (p : Fin 128) :
    col i x5 ids (ix2 p 0) = ∑ q : Fin 1024, Scalar.select (IntOp.cmpi .eq (ids (ix2 p 0)) (laneWord i q)) (x5 (ix2 p q)) 0 := by
  refine (laneSum_apply _ reduces_S128x1024_S128 p).trans (Finset.sum_congr rfl fun q _ => ?_)
  show Scalar.select (IntOp.cmpi .eq (broadcastTo S128x1024 ids broadcasts_S128x1_S128x1024 (ix2 p q)) (broadcastTo S128x1024 (k0_pay15 i) broadcasts_S1x1024_S128x1024 (ix2 p q))) (x5 (ix2 p q)) (Ideal.ofBits .f32 0x00000000#32) = _
  rw [broadcastTo_a1_ab_apply ids _ p q, broadcastTo_1b_ab_apply (k0_pay15 i) _ p q, Ideal.ofBits_zero_f32, pay15_lane]

theorem cat32 {α : Type} (f : Fin 32 → S128x1.Idx → α) :
    Shape.Concatenates ((List.ofFn fun l => (⟨S128x1, f l⟩ : (s : Shape) × (s.Idx → α))).map (·.1)) S128x32 (1 : Fin 2) := by
  rw [List.map_ofFn]
  exact (by decide : Shape.Concatenates (List.ofFn fun _ : Fin 32 => S128x1) S128x32 (1 : Fin 2))

theorem pay98_apply (acc cat : FVec Ideal S128x32 .f32) (j : S128x32.Idx) : k0_pay98 (F := Ideal) acc cat j = acc j + cat j :=
  congrFun (shapeCast_self (addf acc cat) shapeCasts_S128x32_S128x32) j

/-- The shape both id blocks' steps share: the accumulator plus 32 columns side by side, column l made from id column l. -/
theorem step_apply (i : grid0.Coords) (x : Vec Ideal S128x32 .i32) (x5 : Vec Ideal S128x1024 .f32) (acc : Vec Ideal S128x32 .f32)
    (xs : List ((s : Shape) × (s.Idx → EReal)))
    (hx : xs = List.ofFn fun l : Fin 32 => (⟨S128x1, col i x5 (idCol x l)⟩ : (s : Shape) × (s.Idx → EReal))) (p : Fin 128) (l : Fin 32) :
    k0_pay98 (F := Ideal) acc (concatenate S128x32 (1 : Fin 2) xs (hx ▸ cat32 _)) (ix2 p l)
      = acc (ix2 p l) + ∑ q : Fin 1024, Scalar.select (IntOp.cmpi .eq (x (ix2 p l)) (laneWord i q)) (x5 (ix2 p q)) 0 := by
  subst hx
  refine (pay98_apply acc _ _).trans (congrArg (acc (ix2 p l) + ·) ?_)
  refine (concatenate_ofFn_unit_apply (t := S128x32) (s₁ := S128x1) (1 : Fin 2) _ _ rfl rfl (ix2 p l) l rfl (ix2 p 0) fun b hb => ?_).trans ?_
  · match b, hb with
    | ⟨0, _⟩, _ => rfl
    | ⟨1, _⟩, hb => exact absurd rfl hb
  · rw [col_apply, idCol_apply]

/-- Each of the 32 listed columns unfolds to the masked column of its id column. -/
theorem koStep_apply (i : grid0.Coords) (x0 : Vec Ideal S128x32 .i32) (x5 : Vec Ideal S128x1024 .f32)
    (acc : Vec Ideal S128x32 .f32) (p : Fin 128) (l : Fin 32) :
    koStep (F := Ideal) i x0 x5 acc (ix2 p l)
      = acc (ix2 p l) + ∑ q : Fin 1024, Scalar.select (IntOp.cmpi .eq (x0 (ix2 p l)) (laneWord i q)) (x5 (ix2 p q)) 0 :=
  step_apply i x0 x5 acc _ (by rfl) p l

theorem enStep_apply (i : grid0.Coords) (x1 : Vec Ideal S128x32 .i32) (x5 : Vec Ideal S128x1024 .f32)
    (acc : Vec Ideal S128x32 .f32) (p : Fin 128) (l : Fin 32) :
    enStep (F := Ideal) i x1 x5 acc (ix2 p l)
      = acc (ix2 p l) + ∑ q : Fin 1024, Scalar.select (IntOp.cmpi .eq (x1 (ix2 p l)) (laneWord i q)) (x5 (ix2 p q)) 0 :=
  step_apply i x1 x5 acc _ (by rfl) p l

/-- A product with the 0/1 matrix whose entry (k, n) says lane k's word is id n, read entry by entry. -/
theorem negStep_apply (i : grid0.Coords) (x4 : Vec Ideal S1x1024 .i32) (x5 : Vec Ideal S128x1024 .f32)
    (acc : Vec Ideal S128x1024 .f32) (p : Fin 128) (n : Fin 1024) :
    negStep (F := Ideal) i x4 x5 acc (ix2 p n)
      = acc (ix2 p n) + ∑ k : Fin 1024, x5 (ix2 p k) * (((((IntOp.cmpi .eq (laneWord i k) (x4 (ix2 0 n))).setWidth 32).toInt : ℝ) : EReal)) := by
  refine (congrFun (shapeCast_self _ shapeCasts_S128x1024_S128x1024) _).trans ((addf_apply _ _ _).trans (congrArg (acc (ix2 p n) + ·) ?_))
  refine (Cert.LibDot.matmul_zero_at dot_S128x1024_S1024x1024_S128x1024_1_0_0_1_n_n rfl rfl rfl rfl rfl rfl none _ _ p n).trans
    (Finset.sum_congr rfl fun k _ => congrArg (x5 (ix2 p k) * ·) ?_)
  show (((((IntOp.cmpi .eq (broadcastTo S1024x1024 (k0_pay16 i) broadcasts_S1024x1_S1024x1024 (ix2 k n))
      (broadcastTo S1024x1024 (shapeCast S1x1024 x4 shapeCasts_S1x1024_S1x1024) broadcasts_S1x1024_S1024x1024 (ix2 k n))).setWidth 32).toInt : ℝ) : EReal)) = _
  rw [broadcastTo_a1_ab_apply (k0_pay16 i) _ k n, broadcastTo_1b_ab_apply (shapeCast S1x1024 x4 shapeCasts_S1x1024_S1x1024) _ k n,
    shapeCast_self x4, pay16_lane]

/-- The position mask at (p, l) is the test l < len p, the very test the specification's row mean applies. -/
theorem rowMean_apply (len : Vec Ideal S128x1 .i32) (v : FVec Ideal S128x32 .f32) (p : Fin 128) :
    k0_pay3 (F := Ideal) (k0_pay7 len) (k0_pay8 len) v (ix2 p 0) = Cert.TermLoss.rowMean (len (ix2 p 0)) (fun l => v (ix2 p l)) := by
  have h7 : k0_pay7 (F := Ideal) len = len := shapeCast_self len shapeCasts_S128x1_S128x1
  refine (congrArg (fun s => Scalar.select (IntOp.cmpi .sgt (k0_pay7 (F := Ideal) len (ix2 p 0)) 0#32)
      (Ideal.div s (((IntOp.maxsi (k0_pay7 (F := Ideal) len (ix2 p 0)) 1#32).toInt : ℝ) : EReal)) (Ideal.ofBits .f32 0x00000000#32))
    (laneSum_apply _ reduces_S128x32_S128 p)).trans ?_
  rw [h7, Ideal.ofBits_zero_f32]
  refine congrArg (fun s => Scalar.select (IntOp.cmpi .sgt (len (ix2 p 0)) 0#32)
      (Ideal.div s (((IntOp.maxsi (len (ix2 p 0)) 1#32).toInt : ℝ) : EReal)) 0) (Finset.sum_congr rfl fun l _ => ?_)
  show Scalar.select (IntOp.cmpi .slt (iota .tc S128x32 32 [1] iota_S128x32_d1_w32 (ix2 p l))
      (broadcastTo S128x32 (k0_pay7 (F := Ideal) len) broadcasts_S128x1_S128x32 (ix2 p l))) (v (ix2 p l)) (Ideal.ofBits .f32 0x00000000#32) = _
  rw [broadcastTo_a1_ab_apply (k0_pay7 (F := Ideal) len) _ p l, iota_single_apply .tc S128x32 32 1 iota_S128x32_d1_w32 (ix2 p l),
    Ideal.ofBits_zero_f32, h7]

theorem pay9_apply (acc : Vec Ideal S128x32 .f32) (j : S128x32.Idx) : k0_pay9 (F := Ideal) acc j = Cert.TermLoss.nlog (acc j) := by
  show Ideal.ofBits .f32 0x00000000#32 - Ideal.log (acc j + Ideal.ofBits .f32 0x322BCC77#32) = -(Ideal.log (acc j + Ideal.ofBits .f32 0x322BCC77#32))
  rw [Ideal.ofBits_zero_f32, zero_sub]

theorem selfFin_apply (acc : Vec Ideal S128x32 .f32) (len : Vec Ideal S128x1 .i32) (p : Fin 128) :
    selfFin (F := Ideal) acc len (ix2 p 0)
      = Cert.TermLoss.rowMean (len (ix2 p 0)) (fun l => Cert.TermLoss.nlog (acc (ix2 p l))) :=
  (rowMean_apply len (k0_pay9 acc) p).trans (congrArg _ (funext fun l => pay9_apply acc _))

theorem targetFin_apply (acc : Vec Ideal S128x32 .f32) (len : Vec Ideal S128x1 .i32) (p : Fin 128) :
    targetFin (F := Ideal) acc len (ix2 p 0)
      = Cert.TermLoss.rowMean (len (ix2 p 0)) (fun l => Cert.TermLoss.nlog (acc (ix2 p l))) :=
  selfFin_apply acc len p

theorem marginFin_apply (acc : Vec Ideal S128x32 .f32) (len : Vec Ideal S128x1 .i32) (p : Fin 128) :
    marginFin (F := Ideal) acc len (ix2 p 0)
      = Cert.TermLoss.rowMean (len (ix2 p 0)) (fun l => Cert.TermLoss.hinge (acc (ix2 p l))) := by
  refine (rowMean_apply len (maximumf (k0_pay10 (F := Ideal) acc) (k0_pay11 (F := Ideal))) p).trans (congrArg _ (funext fun l => ?_))
  show max (Ideal.ofBits .f32 0x40000000#32 - acc (ix2 p l)) (Ideal.ofBits .f32 0x00000000#32) = max (Ideal.ofBits .f32 0x40000000#32 - acc (ix2 p l)) 0
  rw [Ideal.ofBits_zero_f32]

theorem negFin_apply (acc : Vec Ideal S128x1024 .f32) (p : Fin 128) :
    negFin (F := Ideal) acc (ix2 p 0)
      = Ideal.div (∑ n : Fin 1024, Cert.TermLoss.over (acc (ix2 p n))) (Ideal.ofBits .f32 0x44800000#32) := by
  refine congrArg (fun s => Ideal.div s (Ideal.ofBits .f32 0x44800000#32)) ((laneSum_apply _ reduces_S128x1024_S128 p).trans (Finset.sum_congr rfl fun n _ => ?_))
  show max (acc (ix2 p n) - Ideal.ofBits .f32 0x3DCCCCCD#32) (Ideal.ofBits .f32 0x00000000#32) = max (acc (ix2 p n) - Ideal.ofBits .f32 0x3DCCCCCD#32) 0
  rw [Ideal.ofBits_zero_f32]

/-- The value all three resets take. -/
theorem zero_apply {s : Shape} (h : s.ShapeCasts s) (j : s.Idx) :
    shapeCast s (broadcast s (Scalar.ofBits (F := Ideal) .f32 0x00000000#32)) h j = 0 :=
  (congrFun (shapeCast_self _ h) j).trans Ideal.ofBits_zero_f32

theorem zero12 (j : S128x32.Idx) : k0_pay12 (F := Ideal) j = 0 := zero_apply _ j
theorem zero13 (j : S128x32.Idx) : k0_pay13 (F := Ideal) j = 0 := zero_apply _ j
theorem zero14 (j : S128x1024.Idx) : k0_pay14 (F := Ideal) j = 0 := zero_apply _ j

end Cert.KernelIdeal.Fr

end
-- ==== Proof.KI.Blocks.lean ====
import proofs.«414535_j24696061952429_1_alg».proof.Proof.KI.Kit
import proofs.«414535_j24696061952429_1_alg».proof.Proof.LibKeepdims

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Idealize.ShloMosaic.ValueIdx

open Cert.KernelIdeal.Gen

variable {F : FTy → Type} [FloatOps F]

variable (m : (ℓ : Loc nD τ sig) → Buf (Elt F) ℓ)

theorem coord_tile : ∀ t : Fin cfg0.N, ((grid0.coords t) 1).val = t.val % 125 :=
  (by decide +kernel : ∀ t : Fin grid0.N, ((grid0.coords t) 1).val = t.val % 125)
theorem coord_block : ∀ t : Fin cfg0.N, ((grid0.coords t) 0).val = t.val / 125 :=
  (by decide +kernel : ∀ t : Fin grid0.N, ((grid0.coords t) 0).val = t.val / 125)

theorem idx_facts0 : ∀ t : Fin cfg0.N, win0_0.index t (0 : Fin 2) = t.val / 125 ∧ win0_0.index t (1 : Fin 2) = 0 :=
  (by decide +kernel : ∀ t : Fin grid0.N, win0_0.index t (0 : Fin 2) = t.val / 125 ∧ win0_0.index t (1 : Fin 2) = 0)
theorem idx_facts1 : ∀ t : Fin cfg0.N, win0_1.index t (0 : Fin 2) = t.val / 125 ∧ win0_1.index t (1 : Fin 2) = 0 :=
  (by decide +kernel : ∀ t : Fin grid0.N, win0_1.index t (0 : Fin 2) = t.val / 125 ∧ win0_1.index t (1 : Fin 2) = 0)
theorem idx_facts2 : ∀ t : Fin cfg0.N, win0_2.index t (0 : Fin 2) = t.val / 125 ∧ win0_2.index t (1 : Fin 2) = 0 :=
  (by decide +kernel : ∀ t : Fin grid0.N, win0_2.index t (0 : Fin 2) = t.val / 125 ∧ win0_2.index t (1 : Fin 2) = 0)
theorem idx_facts3 : ∀ t : Fin cfg0.N, win0_3.index t (0 : Fin 2) = t.val / 125 ∧ win0_3.index t (1 : Fin 2) = 0 :=
  (by decide +kernel : ∀ t : Fin grid0.N, win0_3.index t (0 : Fin 2) = t.val / 125 ∧ win0_3.index t (1 : Fin 2) = 0)
theorem idx_facts4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_facts5 : ∀ t : Fin cfg0.N, win0_5.index t (0 : Fin 2) = t.val / 125 ∧ win0_5.index t (1 : Fin 2) = t.val % 125 :=
  (by decide +kernel : ∀ t : Fin grid0.N, win0_5.index t (0 : Fin 2) = t.val / 125 ∧ win0_5.index t (1 : Fin 2) = t.val % 125)

/-- A block's coordinate along an axis is the block index times the block's extent plus the coordinate inside the block. -/
theorem blk0_apply (c : Dev nD) (t : Fin cfg0.N) (p : Fin 128) (l : Fin 32) :
    (iblk m c 0 t : Vec F S128x32 .i32) (ix2 p l)
      = (V m c main_arg1 : Vec F S256x32 .i32) (ix2 ⟨128 * (t.val / 125) + p.val, by have := t.isLt; have h : cfg0.N = 250 := N_0; omega⟩ l) := by
  obtain ⟨e0, e1⟩ := idx_facts0 t
  unfold iblk
  show V m c main_arg1 (((cfg0.win 0).blk t).view.emb (ix2 p l)) = _
  refine congrArg (V m c main_arg1) ?_
  funext a; apply Fin.ext
  match a with
  | ⟨0, _⟩ => show win0_0.index t (0 : Fin 2) * 128 + 1 * p.val = 128 * (t.val / 125) + p.val; omega
  | ⟨1, _⟩ => show win0_0.index t (1 : Fin 2) * 32 + 1 * l.val = l.val; omega

theorem blk1_apply (c : Dev nD) (t : Fin cfg0.N) (p : Fin 128) (l : Fin 32) :
    (iblk m c 1 t : Vec F S128x32 .i32) (ix2 p l)
      = (V m c main_arg3 : Vec F S256x32 .i32) (ix2 ⟨128 * (t.val / 125) + p.val, by have := t.isLt; have h : cfg0.N = 250 := N_0; omega⟩ l) := by
  obtain ⟨e0, e1⟩ := idx_facts1 t
  unfold iblk
  show V m c main_arg3 (((cfg0.win 1).blk t).view.emb (ix2 p l)) = _
  refine congrArg (V m c main_arg3) ?_
  funext a; apply Fin.ext
  match a with
  | ⟨0, _⟩ => show win0_1.index t (0 : Fin 2) * 128 + 1 * p.val = 128 * (t.val / 125) + p.val; omega
  | ⟨1, _⟩ => show win0_1.index t (1 : Fin 2) * 32 + 1 * l.val = l.val; omega

theorem blk2_apply (c : Dev nD) (t : Fin cfg0.N) (p : Fin 128) :
    (iblk m c 2 t : Vec F S128x1 .i32) (ix2 p 0)
      = (V m c main_v1 : Vec F S256x1 .i32) (ix2 ⟨128 * (t.val / 125) + p.val, by have := t.isLt; have h : cfg0.N = 250 := N_0; omega⟩ 0) := by
  obtain ⟨e0, e1⟩ := idx_facts2 t
  unfold iblk
  show V m c main_v1 (((cfg0.win 2).blk t).view.emb (ix2 p 0)) = _
  refine congrArg (V m c main_v1) ?_
  funext a; apply Fin.ext
  match a with
  | ⟨0, _⟩ => show win0_2.index t (0 : Fin 2) * 128 + 1 * p.val = 128 * (t.val / 125) + p.val; omega
  | ⟨1, _⟩ => show win0_2.index t (1 : Fin 2) * 1 + 1 * 0 = 0; omega

theorem blk3_apply (c : Dev nD) (t : Fin cfg0.N) (p : Fin 128) :
    (iblk m c 3 t : Vec F S128x1 .i32) (ix2 p 0)
      = (V m c main_v2 : Vec F S256x1 .i32) (ix2 ⟨128 * (t.val / 125) + p.val, by have := t.isLt; have h : cfg0.N = 250 := N_0; omega⟩ 0) := by
  obtain ⟨e0, e1⟩ := idx_facts3 t
  unfold iblk
  show V m c main_v2 (((cfg0.win 3).blk t).view.emb (ix2 p 0)) = _
  refine congrArg (V m c main_v2) ?_
  funext a; apply Fin.ext
  match a with
  | ⟨0, _⟩ => show win0_3.index t (0 : Fin 2) * 128 + 1 * p.val = 128 * (t.val / 125) + p.val; omega
  | ⟨1, _⟩ => show win0_3.index t (1 : Fin 2) * 1 + 1 * 0 = 0; omega

theorem blk4_apply (c : Dev nD) (t : Fin cfg0.N) (n : Fin 1024) :
    (iblk m c 4 t : Vec F S1x1024 .i32) (ix2 0 n) = (V m c main_v0 : Vec F S1x1024 .i32) (ix2 0 n) := by
  obtain ⟨e0, e1⟩ := idx_facts4 t
  unfold iblk
  show V m c main_v0 (((cfg0.win 4).blk t).view.emb (ix2 0 n)) = _
  refine congrArg (V m c main_v0) ?_
  funext a; apply Fin.ext
  match a with
  | ⟨0, _⟩ => show win0_4.index t (0 : Fin 2) * 1 + 1 * 0 = 0; omega
  | ⟨1, _⟩ => show win0_4.index t (1 : Fin 2) * 1024 + 1 * n.val = n.val; omega

theorem blk5_apply (c : Dev nD) (t : Fin cfg0.N) (p : Fin 128) (q : Fin 1024) :
    (iblk m c 5 t : Vec F S128x1024 .f32) (ix2 p q)
      = (V m c main_arg0 : Vec F S256x128000 .f32) (ix2 ⟨128 * (t.val / 125) + p.val, by have := t.isLt; have h : cfg0.N = 250 := N_0; omega⟩
          ⟨1024 * (t.val % 125) + q.val, by have := Nat.mod_lt t.val (by decide : 125 > 0); omega⟩) := by
  obtain ⟨e0, e1⟩ := idx_facts5 t
  unfold iblk
  show V m c main_arg0 (((cfg0.win 5).blk t).view.emb (ix2 p q)) = _
  refine congrArg (V m c main_arg0) ?_
  funext a; apply Fin.ext
  match a with
  | ⟨0, _⟩ => show win0_5.index t (0 : Fin 2) * 128 + 1 * p.val = 128 * (t.val / 125) + p.val; omega
  | ⟨1, _⟩ => show win0_5.index t (1 : Fin 2) * 1024 + 1 * q.val = 1024 * (t.val % 125) + q.val; omega

theorem V_v1_eq (c : Dev nD) :
    (V m c main_v1 : Vec F S256x1 .i32) = shapeCast S256x1 (m ((c : Thread nD τ).loc main_arg2) : Vec F S256 .i32) shapeCasts_S256_S256x1 := by
  dsimp only [V, V0]
  simp only [hostOps0, List.flatten_cons, List.flatten_nil, List.append_nil]
  after_results
  rfl
theorem V_v2_eq (c : Dev nD) :
    (V m c main_v2 : Vec F S256x1 .i32) = shapeCast S256x1 (m ((c : Thread nD τ).loc main_arg4) : Vec F S256 .i32) shapeCasts_S256_S256x1 := by
  dsimp only [V, V0]
  simp only [hostOps0, List.flatten_cons, List.flatten_nil, List.append_nil]
  after_results
  rfl
theorem V_v0_eq (c : Dev nD) :
    (V m c main_v0 : Vec F S1x1024 .i32) = shapeCast S1x1024 (m ((c : Thread nD τ).loc main_arg5) : Vec F S1024 .i32) shapeCasts_S1024_S1x1024 := by
  dsimp only [V, V0]
  simp only [hostOps0, List.flatten_cons, List.flatten_nil, List.append_nil]
  after_results
  rfl

theorem shapeCast_a_1a_apply {α : Type} {a : ℕ} (x : (⟨1, ![a]⟩ : Shape).Idx → α) (h : (⟨1, ![a]⟩ : Shape).ShapeCasts ⟨2, ![1, a]⟩)
    (u : Fin 1) (p : Fin a) : shapeCast ⟨2, ![1, a]⟩ x h (ix2 u p) = x (ix1 p) :=
  shapeCast_apply x h _ _ (by
    have hu : u.val = 0 := by omega
    rw [Shape.rowMajor_val_two, Shape.rowMajor_val_one]
    show p.val = u.val * a + p.val
    rw [hu, Nat.zero_mul, Nat.zero_add])

theorem V_v1_apply (c : Dev nD) (b : Fin 256) :
    (V m c main_v1 : Vec F S256x1 .i32) (ix2 b 0) = (m ((c : Thread nD τ).loc main_arg2) : Vec F S256 .i32) (ix1 b) := by
  rw [V_v1_eq]
  exact shapeCast_a_a1_apply _ _ b 0
theorem V_v2_apply (c : Dev nD) (b : Fin 256) :
    (V m c main_v2 : Vec F S256x1 .i32) (ix2 b 0) = (m ((c : Thread nD τ).loc main_arg4) : Vec F S256 .i32) (ix1 b) := by
  rw [V_v2_eq]
  exact shapeCast_a_a1_apply _ _ b 0
theorem V_v0_apply (c : Dev nD) (n : Fin 1024) :
    (V m c main_v0 : Vec F S1x1024 .i32) (ix2 0 n) = (m ((c : Thread nD τ).loc main_arg5) : Vec F S1024 .i32) (ix1 n) := by
  rw [V_v0_eq]
  exact shapeCast_a_1a_apply _ _ 0 n

end Cert.KernelIdeal.Fr

end
-- ==== Proof.GatherSum.lean ====
import proofs.«414535_j24696061952429_1_alg».proof.Proof.Spec
import Mathlib.Data.EReal.Basic
import Mathlib.Data.EReal.Operations
import Mathlib.Data.EReal.Inv
import Mathlib.Algebra.BigOperators.Ring.Finset
import Mathlib.Algebra.BigOperators.Fin
import Mathlib.Tactic.Ring
import Mathlib.Tactic.NormNum

noncomputable section

open scoped BigOperators

namespace Cert.TermLoss

open Idealize.ShloMosaic Idealize.ShloMosaic.ValueIdx

def colWord (j : Fin 125) (q : Fin 1024) : BitVec 32 :=
  IntOp.addi (IntOp.muli (BitVec.ofNat 32 j.val) 1024#32) (BitVec.ofNat 32 q.val)

def colIdx (j : Fin 125) (q : Fin 1024) : Fin 128000 :=
  ⟨j.val * 1024 + q.val, by have := j.isLt; have := q.isLt; omega⟩

theorem colWord_toNat (j : Fin 125) (q : Fin 1024) : (colWord j q).toNat = j.val * 1024 + q.val := by
  have hj := j.isLt
  have hq := q.isLt
  simp only [colWord, IntOp.addi, IntOp.muli, BitVec.toNat_add, BitVec.toNat_mul, BitVec.toNat_ofNat]
  omega

theorem cmpi_eq_ite {w : Nat} (a b : BitVec w) : IntOp.cmpi .eq a b = if a = b then 1#1 else 0#1 := by
  by_cases h : a = b
  · subst h; simp [IntOp.cmpi]
  · have hb : (a == b) = false := beq_eq_false_iff_ne.mpr h
    simp only [IntOp.cmpi, hb, if_neg h]
    rfl

theorem eq_colWord_iff (w : BitVec 32) (j : Fin 125) (q : Fin 1024) :
    w = colWord j q ↔ w.toNat = j.val * 1024 + q.val := by
  constructor
  · intro h; rw [h, colWord_toNat]
  · intro h; apply BitVec.eq_of_toNat_eq; rw [h, colWord_toNat]

/-- A word is the word of at most one (tile, lane), so a sum over all tiles and lanes masked by that equality has at most one term. -/
theorem sum_tiles_single (f : Fin 125 → Fin 1024 → EReal) (w : BitVec 32)
    (hf : ∀ j q, w.toNat ≠ j.val * 1024 + q.val → f j q = 0) :
    (∑ j : Fin 125, ∑ q : Fin 1024, f j q) =
      if h : w.toNat < 128000 then
        f ⟨w.toNat / 1024, by omega⟩ ⟨w.toNat % 1024, Nat.mod_lt _ (by norm_num)⟩
      else 0 := by
  by_cases h : w.toNat < 128000
  · rw [dif_pos h]
    rw [Finset.sum_eq_single (⟨w.toNat / 1024, by omega⟩ : Fin 125)]
    · rw [Finset.sum_eq_single (⟨w.toNat % 1024, Nat.mod_lt _ (by norm_num)⟩ : Fin 1024)]
      · intro q _ hq
        apply hf
        intro hw
        apply hq
        apply Fin.ext
        simp only at hw ⊢
        omega
      · intro hq; exact absurd (Finset.mem_univ _) hq
    · intro j _ hj
      apply Finset.sum_eq_zero
      intro q _
      apply hf
      intro hw
      apply hj
      apply Fin.ext
      have := q.isLt
      simp only
      omega
    · intro hj; exact absurd (Finset.mem_univ _) hj
  · rw [dif_neg h]
    apply Finset.sum_eq_zero
    intro j _
    apply Finset.sum_eq_zero
    intro q _
    apply hf
    have := j.isLt
    have := q.isLt
    omega

theorem colIdx_divMod (n : ℕ) (h : n < 128000) :
    colIdx ⟨n / 1024, by omega⟩ ⟨n % 1024, Nat.mod_lt _ (by norm_num)⟩ = ⟨n, h⟩ := by
  apply Fin.ext
  simp only [colIdx]
  omega

theorem sum_select_pick (x : (⟨2, ![256, 128000]⟩ : Shape).Idx → EReal) (b : Fin 256) (w : BitVec 32) :
    (∑ j : Fin 125, ∑ q : Fin 1024,
      Scalar.select (IntOp.cmpi .eq w (colWord j q)) (x (ix2 b (colIdx j q))) 0) = pick x b w := by
  rw [sum_tiles_single _ w]
  · unfold pick
    by_cases h : w.toNat < 128000
    · rw [dif_pos h, dif_pos h]
      have hw : w = colWord ⟨w.toNat / 1024, by omega⟩ ⟨w.toNat % 1024, Nat.mod_lt _ (by norm_num)⟩ := by
        rw [eq_colWord_iff]; simp only; omega
      rw [cmpi_eq_ite, if_pos hw, colIdx_divMod _ h]
      simp [Scalar.select]
    · rw [dif_neg h, dif_neg h]
  · intro j q hne
    have hw : ¬ w = colWord j q := by rw [eq_colWord_iff]; exact hne
    rw [cmpi_eq_ite, if_neg hw]
    simp [Scalar.select]

theorem sum_onehot_pick (x : (⟨2, ![256, 128000]⟩ : Shape).Idx → EReal) (b : Fin 256) (w : BitVec 32) :
    (∑ j : Fin 125, ∑ q : Fin 1024,
      x (ix2 b (colIdx j q)) * (((((IntOp.cmpi .eq (colWord j q) w).setWidth 32).toInt : ℝ) : EReal))) = pick x b w := by
  rw [sum_tiles_single _ w]
  · unfold pick
    by_cases h : w.toNat < 128000
    · rw [dif_pos h, dif_pos h]
      have hw : colWord ⟨w.toNat / 1024, by omega⟩ ⟨w.toNat % 1024, Nat.mod_lt _ (by norm_num)⟩ = w := by
        symm; rw [eq_colWord_iff]; simp only; omega
      rw [cmpi_eq_ite, if_pos hw, colIdx_divMod _ h]
      have h1 : ((1#1 : BitVec 1).setWidth 32).toInt = 1 := by decide
      rw [h1]
      simp
    · rw [dif_neg h, dif_neg h]
  · intro j q hne
    have hw : ¬ colWord j q = w := by
      intro h; exact hne (by rw [← h, colWord_toNat])
    rw [cmpi_eq_ite, if_neg hw]
    have h0 : ((0#1 : BitVec 1).setWidth 32).toInt = 0 := by decide
    rw [h0]
    simp

/-- The sum over the first n of the 125 tiles: what a running sum holds after tile n - 1. -/
def cutSum (g : Fin 125 → EReal) (n : ℕ) : EReal := ∑ j : Fin 125, if j.val < n then g j else 0

theorem cutSum_zero (g : Fin 125 → EReal) : cutSum g 0 = 0 := by
  simp [cutSum]

theorem cutSum_succ (g : Fin 125 → EReal) {n : ℕ} (hn : n < 125) :
    cutSum g (n + 1) = cutSum g n + g ⟨n, hn⟩ := by
  unfold cutSum
  have hterm : ∀ j : Fin 125, (if j.val < n + 1 then g j else 0) =
      (if j.val < n then g j else 0) + (if j = ⟨n, hn⟩ then g j else 0) := by
    intro j
    by_cases h1 : j.val < n
    · have h2 : j.val < n + 1 := by omega
      have h3 : ¬ j = ⟨n, hn⟩ := by intro h; rw [h] at h1; simp at h1
      rw [if_pos h1, if_pos h2, if_neg h3, add_zero]
    · by_cases h2 : j.val = n
      · have h3 : j = ⟨n, hn⟩ := Fin.ext h2
        have h4 : j.val < n + 1 := by omega
        rw [if_neg h1, if_pos h4, if_pos h3, zero_add]
      · have h3 : ¬ j = ⟨n, hn⟩ := by intro h; apply h2; rw [h]
        have h4 : ¬ j.val < n + 1 := by omega
        rw [if_neg h1, if_neg h4, if_neg h3, add_zero]
  rw [Finset.sum_congr rfl (fun j _ => hterm j), Finset.sum_add_distrib, Finset.sum_ite_eq' Finset.univ (⟨n, hn⟩ : Fin 125) g]
  simp

theorem cutSum_last (g : Fin 125 → EReal) : cutSum g 125 = ∑ j : Fin 125, g j := by
  unfold cutSum
  apply Finset.sum_congr rfl
  intro j _
  rw [if_pos j.isLt]

theorem cutSum_select_pick (x : (⟨2, ![256, 128000]⟩ : Shape).Idx → EReal) (b : Fin 256) (w : BitVec 32) :
    cutSum (fun j => ∑ q : Fin 1024,
      Scalar.select (IntOp.cmpi .eq w (colWord j q)) (x (ix2 b (colIdx j q))) 0) 125 = pick x b w := by
  rw [cutSum_last]; exact sum_select_pick x b w

theorem cutSum_onehot_pick (x : (⟨2, ![256, 128000]⟩ : Shape).Idx → EReal) (b : Fin 256) (w : BitVec 32) :
    cutSum (fun j => ∑ q : Fin 1024,
      x (ix2 b (colIdx j q)) * (((((IntOp.cmpi .eq (colWord j q) w).setWidth 32).toInt : ℝ) : EReal))) 125 = pick x b w := by
  rw [cutSum_last]; exact sum_onehot_pick x b w

theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_256 : Ideal.ofBits .f32 0x43800000#32 = ((256 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_262144 : Ideal.ofBits .f32 0x48800000#32 = ((262144 : ℝ) : EReal) := by
  simp [Ideal.ofBits, Ideal.ieee, -EReal.coe_mul]; norm_num

theorem tenth_real : ∃ t : ℝ, tenth = (t : EReal) := by
  refine ⟨13421773 * (2 : ℝ) ^ (-27 : ℤ), ?_⟩
  simp [tenth, Ideal.ofBits, Ideal.ieee, -EReal.coe_mul]

theorem over_real (r : ℝ) : ∃ a : ℝ, over (r : EReal) = (a : EReal) := by
  obtain ⟨t, ht⟩ := tenth_real
  refine ⟨max (r - t) 0, ?_⟩
  unfold over
  rw [ht, ← EReal.coe_sub, ← EReal.coe_zero]
  exact (EReal.coe_strictMono.monotone.map_max).symm

theorem pick_real (x : (⟨2, ![256, 128000]⟩ : Shape).Idx → EReal) (hfin : ∀ i, ∃ r : ℝ, x i = (r : EReal))
    (b : Fin 256) (w : BitVec 32) : ∃ r : ℝ, pick x b w = (r : EReal) := by
  unfold pick
  by_cases h : w.toNat < 128000
  · rw [dif_pos h]; exact hfin _
  · rw [dif_neg h]; exact ⟨0, rfl⟩

/-- Dividing each row's sum and then the sum of rows equals dividing the double sum once, because every entry is a real number. -/
theorem negLossByRows_eq (x : (⟨2, ![256, 128000]⟩ : Shape).Idx → EReal) (nt : Fin 1024 → BitVec 32)
    (hfin : ∀ i, ∃ r : ℝ, x i = (r : EReal)) : negLossByRows x nt = negLoss x nt := by
  have hover : ∀ (b : Fin 256) (n : Fin 1024), ∃ a : ℝ, over (pick x b (nt n)) = (a : EReal) := by
    intro b n
    obtain ⟨r, hr⟩ := pick_real x hfin b (nt n)
    rw [hr]; exact over_real r
  choose a ha using hover
  have h256 : (256 : ℝ) ≠ 0 := by norm_num
  have h1024 : (1024 : ℝ) ≠ 0 := by norm_num
  have h262144 : (262144 : ℝ) ≠ 0 := by norm_num
  unfold negLossByRows negLoss batchMean
  simp only [ha]
  rw [ofBits_256, ofBits_1024, ofBits_262144, Ideal.div_coe h256, Ideal.div_coe h262144]
  simp only [Ideal.div_coe h1024, ← coe_finsum, ← EReal.coe_mul]
  congr 1
  rw [← Finset.sum_mul]
  ring

end Cert.TermLoss

end
-- ==== Proof.KI.Accum.lean ====
import proofs.«414535_j24696061952429_1_alg».proof.Proof.KI.Pieces
import proofs.«414535_j24696061952429_1_alg».proof.Proof.KI.StepValues
import proofs.«414535_j24696061952429_1_alg».proof.Proof.KI.Blocks
import proofs.«414535_j24696061952429_1_alg».proof.Proof.GatherSum

set_option maxRecDepth 16384

noncomputable section

open scoped BigOperators

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.TermLoss Idealize.ShloMosaic.ValueIdx

variable (m : (ℓ : Loc nD τ sig) → Buf (Elt Ideal) ℓ)

abbrev tab (c : Dev nD) : Vec Ideal S256x128000 .f32 := V m c main_arg0
abbrev koA (c : Dev nD) : Vec Ideal S256x32 .i32 := V m c main_arg1
abbrev enA (c : Dev nD) : Vec Ideal S256x32 .i32 := V m c main_arg3
abbrev ntA (c : Dev nD) : Vec Ideal S1x1024 .i32 := V m c main_v0
abbrev klA (c : Dev nD) : Vec Ideal S256x1 .i32 := V m c main_v1
abbrev elA (c : Dev nD) : Vec Ideal S256x1 .i32 := V m c main_v2

def rowOf (n : ℕ) (hn : n < cfg0.N) (p : Fin 128) : Fin 256 :=
  ⟨128 * (n / 125) + p.val, by have h : cfg0.N = 250 := N_0; have := p.isLt; omega⟩

def idTile (c : Dev nD) (ids : Vec Ideal S256x32 .i32) (b : Fin 256) (l : Fin 32) : Fin 125 → EReal := fun j =>
  ∑ q : Fin 1024, Scalar.select (IntOp.cmpi .eq (ids (ix2 b l)) (colWord j q)) (tab m c (ix2 b (colIdx j q))) 0

def ntTile (c : Dev nD) (b : Fin 256) (n : Fin 1024) : Fin 125 → EReal := fun j =>
  ∑ k : Fin 1024, tab m c (ix2 b (colIdx j k)) * (((((IntOp.cmpi .eq (colWord j k) (ntA m c (ix2 0 n))).setWidth 32).toInt : ℝ) : EReal))

theorem laneWord_eq (t : Fin cfg0.N) (q : Fin 1024) :
    laneWord (grid0.coords t) q = colWord ⟨t.val % 125, Nat.mod_lt _ (by decide)⟩ q :=
  congrArg (fun v : ℕ => IntOp.addi (IntOp.muli (BitVec.ofNat 32 v) 1024#32) (BitVec.ofNat 32 q.val)) (coord_tile t)

theorem colIdx_eq (t : Fin cfg0.N) (q : Fin 1024) :
    (⟨1024 * (t.val % 125) + q.val, by have := Nat.mod_lt t.val (by decide : 125 > 0); have := q.isLt; omega⟩ : Fin 128000)
      = colIdx ⟨t.val % 125, Nat.mod_lt _ (by decide)⟩ q := by
  apply Fin.ext; unfold colIdx; dsimp only; omega

theorem rowOf_pred (t : Fin cfg0.N) (h0 : ¬t.val % 125 = 0) (hp : t.val - 1 < cfg0.N) (p : Fin 128) :
    rowOf (t.val - 1) hp p = rowOf t.val t.isLt p := by
  apply Fin.ext
  show 128 * ((t.val - 1) / 125) + p.val = 128 * (t.val / 125) + p.val
  omega

theorem id_point (c : Dev nD) (ids : Vec Ideal S256x32 .i32) (b : Fin 256) (l : Fin 32) (j : Fin 125)
    (i : grid0.Coords) (x : Vec Ideal S128x32 .i32) (x5 : Vec Ideal S128x1024 .f32) (p : Fin 128)
    (hi : ∀ q, laneWord i q = colWord j q)
    (hx : x (ix2 p l) = ids (ix2 b l))
    (hx5 : ∀ q, x5 (ix2 p q) = tab m c (ix2 b (colIdx j q))) :
    (∑ q : Fin 1024, Scalar.select (IntOp.cmpi .eq (x (ix2 p l)) (laneWord i q)) (x5 (ix2 p q)) 0) = idTile m c ids b l j := by
  show _ = ∑ q : Fin 1024, Scalar.select (IntOp.cmpi .eq (ids (ix2 b l)) (colWord j q)) (tab m c (ix2 b (colIdx j q))) 0
  refine Finset.sum_congr rfl fun q _ => ?_
  rw [hx, hi q, hx5 q]

theorem nt_point (c : Dev nD) (b : Fin 256) (n : Fin 1024) (j : Fin 125)
    (i : grid0.Coords) (x4 : Vec Ideal S1x1024 .i32) (x5 : Vec Ideal S128x1024 .f32) (p : Fin 128)
    (hi : ∀ q, laneWord i q = colWord j q)
    (hx4 : x4 (ix2 0 n) = ntA m c (ix2 0 n))
    (hx5 : ∀ q, x5 (ix2 p q) = tab m c (ix2 b (colIdx j q))) :
    (∑ k : Fin 1024, x5 (ix2 p k) * (((((IntOp.cmpi .eq (laneWord i k) (x4 (ix2 0 n))).setWidth 32).toInt : ℝ) : EReal)))
      = ntTile m c b n j := by
  show _ = ∑ k : Fin 1024, tab m c (ix2 b (colIdx j k)) * (((((IntOp.cmpi .eq (colWord j k) (ntA m c (ix2 0 n))).setWidth 32).toInt : ℝ) : EReal))
  refine Finset.sum_congr rfl fun k _ => ?_
  rw [hx4, hi k, hx5 k]

theorem cut_step (g : Fin 125 → EReal) (n : ℕ) (hn : n < 125) (a s : EReal) (ha : a = cutSum g n) (hs : s = g ⟨n, hn⟩) :
    a + s = cutSum g (n + 1) := by
  rw [cutSum_succ g hn, ha, hs]

theorem blk5_row (c : Dev nD) (t : Fin cfg0.N) (p : Fin 128) (q : Fin 1024) :
    (iblk m c 5 t : Vec Ideal S128x1024 .f32) (ix2 p q)
      = tab m c (ix2 (rowOf t.val t.isLt p) (colIdx ⟨t.val % 125, Nat.mod_lt _ (by decide)⟩ q)) :=
  (blk5_apply m c t p q).trans (congrArg (fun k => tab m c (ix2 (rowOf t.val t.isLt p) k)) (colIdx_eq t q))

theorem acc0_point (c : Dev nD) (t : Fin cfg0.N) (acc : Vec Ideal S128x32 .f32) (p : Fin 128) (l : Fin 32)
    (hacc : acc (ix2 p l) = cutSum (idTile m c (koA m c) (rowOf t.val t.isLt p) l) (t.val % 125)) :
    koStep (F := Ideal) (grid0.coords t) (iblk m c 0 t) (iblk m c 5 t) acc (ix2 p l)
      = cutSum (idTile m c (koA m c) (rowOf t.val t.isLt p) l) (t.val % 125 + 1) := by
  refine (koStep_apply (grid0.coords t) (iblk m c 0 t) (iblk m c 5 t) acc p l).trans ?_
  exact cut_step _ _ (Nat.mod_lt _ (by decide)) _ _ hacc
    (id_point m c (koA m c) (rowOf t.val t.isLt p) l ⟨t.val % 125, Nat.mod_lt _ (by decide)⟩ (grid0.coords t)
      (iblk m c 0 t) (iblk m c 5 t) p (fun q => laneWord_eq t q) (blk0_apply m c t p l) (fun q => blk5_row m c t p q))

theorem acc1_point (c : Dev nD) (t : Fin cfg0.N) (acc : Vec Ideal S128x32 .f32) (p : Fin 128) (l : Fin 32)
    (hacc : acc (ix2 p l) = cutSum (idTile m c (enA m c) (rowOf t.val t.isLt p) l) (t.val % 125)) :
    enStep (F := Ideal) (grid0.coords t) (iblk m c 1 t) (iblk m c 5 t) acc (ix2 p l)
      = cutSum (idTile m c (enA m c) (rowOf t.val t.isLt p) l) (t.val % 125 + 1) := by
  refine (enStep_apply (grid0.coords t) (iblk m c 1 t) (iblk m c 5 t) acc p l).trans ?_
  exact cut_step _ _ (Nat.mod_lt _ (by decide)) _ _ hacc
    (id_point m c (enA m c) (rowOf t.val t.isLt p) l ⟨t.val % 125, Nat.mod_lt _ (by decide)⟩ (grid0.coords t)
      (iblk m c 1 t) (iblk m c 5 t) p (fun q => laneWord_eq t q) (blk1_apply m c t p l) (fun q => blk5_row m c t p q))

theorem acc2_point (c : Dev nD) (t : Fin cfg0.N) (acc : Vec Ideal S128x1024 .f32) (p : Fin 128) (k : Fin 1024)
    (hacc : acc (ix2 p k) = cutSum (ntTile m c (rowOf t.val t.isLt p) k) (t.val % 125)) :
    negStep (F := Ideal) (grid0.coords t) (iblk m c 4 t) (iblk m c 5 t) acc (ix2 p k)
      = cutSum (ntTile m c (rowOf t.val t.isLt p) k) (t.val % 125 + 1) := by
  refine (negStep_apply (grid0.coords t) (iblk m c 4 t) (iblk m c 5 t) acc p k).trans ?_
  exact cut_step _ _ (Nat.mod_lt _ (by decide)) _ _ hacc
    (nt_point m c (rowOf t.val t.isLt p) k ⟨t.val % 125, Nat.mod_lt _ (by decide)⟩ (grid0.coords t)
      (iblk m c 4 t) (iblk m c 5 t) p (fun q => laneWord_eq t q) (blk4_apply m c t k) (fun q => blk5_row m c t p q))

set_option maxHeartbeats 2000000 in
theorem acc0_first (c : Dev nD) (t : Fin cfg0.N) (h0 : t.val % 125 = 0) (h1 : ¬t.val % 125 = 124) :
    ((outsAt0 m c t.val t.isLt).2.2.2.2.1 : Vec Ideal S128x32 .f32)
      = koStep (F := Ideal) (grid0.coords t) (iblk m c 0 t) (iblk m c 5 t) (k0_pay12 (F := Ideal)) := by
  rw [outsAt0_A m c t h0 h1, outsA]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

set_option maxHeartbeats 2000000 in
theorem acc0_step (c : Dev nD) (t : Fin cfg0.N) (h0 : ¬t.val % 125 = 0) :
    ((outsAt0 m c t.val t.isLt).2.2.2.2.1 : Vec Ideal S128x32 .f32)
      = koStep (F := Ideal) (grid0.coords t) (iblk m c 0 t) (iblk m c 5 t) (outsAt0 m c (t.val - 1) (Nat.lt_of_le_of_lt (Nat.sub_le _ _) t.isLt)).2.2.2.2.1 := by
  by_cases h1 : t.val % 125 = 124
  · rw [outsAt0_C m c t h0 h1, outsC]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
  · rw [outsAt0_B m c t h0 h1, outsB]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem acc1_first (c : Dev nD) (t : Fin cfg0.N) (h0 : t.val % 125 = 0) (h1 : ¬t.val % 125 = 124) :
    ((outsAt0 m c t.val t.isLt).2.2.2.2.2.1 : Vec Ideal S128x32 .f32)
      = enStep (F := Ideal) (grid0.coords t) (iblk m c 1 t) (iblk m c 5 t) (k0_pay13 (F := Ideal)) := by
  rw [outsAt0_A m c t h0 h1, outsA]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

set_option maxHeartbeats 2000000 in
theorem acc1_step (c : Dev nD) (t : Fin cfg0.N) (h0 : ¬t.val % 125 = 0) :
    ((outsAt0 m c t.val t.isLt).2.2.2.2.2.1 : Vec Ideal S128x32 .f32)
      = enStep (F := Ideal) (grid0.coords t) (iblk m c 1 t) (iblk m c 5 t) (outsAt0 m c (t.val - 1) (Nat.lt_of_le_of_lt (Nat.sub_le _ _) t.isLt)).2.2.2.2.2.1 := by
  by_cases h1 : t.val % 125 = 124
  · rw [outsAt0_C m c t h0 h1, outsC]
    dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
  · rw [outsAt0_B m c t h0 h1, outsB]
    dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem acc2_first (c : Dev nD) (t : Fin cfg0.N) (h0 : t.val % 125 = 0) (h1 : ¬t.val % 125 = 124) :
    ((outsAt0 m c t.val t.isLt).2.2.2.2.2.2 : Vec Ideal S128x1024 .f32)
      = negStep (F := Ideal) (grid0.coords t) (iblk m c 4 t) (iblk m c 5 t) (k0_pay14 (F := Ideal)) := by
  rw [outsAt0_A m c t h0 h1, outsA]
  dsimp only
  exact sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)

set_option maxHeartbeats 2000000 in
theorem acc2_step (c : Dev nD) (t : Fin cfg0.N) (h0 : ¬t.val % 125 = 0) :
    ((outsAt0 m c t.val t.isLt).2.2.2.2.2.2 : Vec Ideal S128x1024 .f32)
      = negStep (F := Ideal) (grid0.coords t) (iblk m c 4 t) (iblk m c 5 t) (outsAt0 m c (t.val - 1) (Nat.lt_of_le_of_lt (Nat.sub_le _ _) t.isLt)).2.2.2.2.2.2 := by
  by_cases h1 : t.val % 125 = 124
  · rw [outsAt0_C m c t h0 h1, outsC]
    dsimp only
    exact sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
  · rw [outsAt0_B m c t h0 h1, outsB]
    dsimp only
    exact sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem out6_C (c : Dev nD) (t : Fin cfg0.N) (h0 : ¬t.val % 125 = 0) (h1 : t.val % 125 = 124) :
    ((outsAt0 m c t.val t.isLt).1 : Vec Ideal S128x1 .f32)
      = selfFin (F := Ideal) ((outsAt0 m c t.val t.isLt).2.2.2.2.1) (iblk m c 2 t) := by
  rw [acc0_step m c t h0]
  rw [outsAt0_C m c t h0 h1, outsC]
  dsimp only
  exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem out7_C (c : Dev nD) (t : Fin cfg0.N) (h0 : ¬t.val % 125 = 0) (h1 : t.val % 125 = 124) :
    ((outsAt0 m c t.val t.isLt).2.1 : Vec Ideal S128x1 .f32)
      = targetFin (F := Ideal) ((outsAt0 m c t.val t.isLt).2.2.2.2.2.1) (iblk m c 3 t) := by
  rw [acc1_step m c t h0]
  rw [outsAt0_C m c t h0 h1, outsC]
  dsimp only
  exact out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem out8_C (c : Dev nD) (t : Fin cfg0.N) (h0 : ¬t.val % 125 = 0) (h1 : t.val % 125 = 124) :
    ((outsAt0 m c t.val t.isLt).2.2.1 : Vec Ideal S128x1 .f32)
      = marginFin (F := Ideal) ((outsAt0 m c t.val t.isLt).2.2.2.2.2.1) (iblk m c 3 t) := by
  rw [acc1_step m c t h0]
  rw [outsAt0_C m c t h0 h1, outsC]
  dsimp only
  exact out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

set_option maxHeartbeats 2000000 in
theorem out9_C (c : Dev nD) (t : Fin cfg0.N) (h0 : ¬t.val % 125 = 0) (h1 : t.val % 125 = 124) :
    ((outsAt0 m c t.val t.isLt).2.2.2.1 : Vec Ideal S128x1 .f32)
      = negFin (F := Ideal) ((outsAt0 m c t.val t.isLt).2.2.2.2.2.2) := by
  rw [acc2_step m c t h0]
  rw [outsAt0_C m c t h0 h1, outsC]
  dsimp only
  exact out0_C_9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

/-- The induction hypothesis over the grid points: after tile j of a batch block each running sum holds the masked sums over the tiles 0..j. -/
def AccInv (c : Dev nD) (n : ℕ) (hn : n < cfg0.N) : Prop :=
  (∀ (p : Fin 128) (l : Fin 32), ((outsAt0 m c n hn).2.2.2.2.1 : Vec Ideal S128x32 .f32) (ix2 p l)
      = cutSum (idTile m c (koA m c) (rowOf n hn p) l) (n % 125 + 1)) ∧
  (∀ (p : Fin 128) (l : Fin 32), ((outsAt0 m c n hn).2.2.2.2.2.1 : Vec Ideal S128x32 .f32) (ix2 p l)
      = cutSum (idTile m c (enA m c) (rowOf n hn p) l) (n % 125 + 1)) ∧
  (∀ (p : Fin 128) (k : Fin 1024), ((outsAt0 m c n hn).2.2.2.2.2.2 : Vec Ideal S128x1024 .f32) (ix2 p k)
      = cutSum (ntTile m c (rowOf n hn p) k) (n % 125 + 1))

theorem acc_inv_first (c : Dev nD) (t : Fin cfg0.N) (h0 : t.val % 125 = 0) : AccInv m c t.val t.isLt := by
  have h1 : ¬t.val % 125 = 124 := by omega
  refine ⟨fun p l => ?_, fun p l => ?_, fun p k => ?_⟩
  · refine (congrFun (acc0_first m c t h0 h1) (ix2 p l)).trans ?_
    refine acc0_point m c t _ p l ?_
    rw [h0, cutSum_zero]; exact zero12 _
  · refine (congrFun (acc1_first m c t h0 h1) (ix2 p l)).trans ?_
    refine acc1_point m c t _ p l ?_
    rw [h0, cutSum_zero]; exact zero13 _
  · refine (congrFun (acc2_first m c t h0 h1) (ix2 p k)).trans ?_
    refine acc2_point m c t _ p k ?_
    rw [h0, cutSum_zero]; exact zero14 _

theorem acc_inv_step (c : Dev nD) (t : Fin cfg0.N) (h0 : ¬t.val % 125 = 0)
    (ih : AccInv m c (t.val - 1) (Nat.lt_of_le_of_lt (Nat.sub_le _ _) t.isLt)) : AccInv m c t.val t.isLt := by
  have e2 : (t.val - 1) % 125 + 1 = t.val % 125 := by omega
  obtain ⟨ih0, ih1, ih2⟩ := ih
  refine ⟨fun p l => ?_, fun p l => ?_, fun p k => ?_⟩
  · refine (congrFun (acc0_step m c t h0) (ix2 p l)).trans ?_
    refine acc0_point m c t _ p l ?_
    have h := ih0 p l
    rw [rowOf_pred t h0 _ p, e2] at h
    exact h
  · refine (congrFun (acc1_step m c t h0) (ix2 p l)).trans ?_
    refine acc1_point m c t _ p l ?_
    have h := ih1 p l
    rw [rowOf_pred t h0 _ p, e2] at h
    exact h
  · refine (congrFun (acc2_step m c t h0) (ix2 p k)).trans ?_
    refine acc2_point m c t _ p k ?_
    have h := ih2 p k
    rw [rowOf_pred t h0 _ p, e2] at h
    exact h

theorem acc_inv (c : Dev nD) : ∀ (n : ℕ) (hn : n < cfg0.N), AccInv m c n hn := by
  intro n
  induction n with
  | zero => intro hn; exact acc_inv_first m c ⟨0, hn⟩ (Nat.zero_mod _)
  | succ k ih =>
    intro hn
    by_cases h0 : (k + 1) % 125 = 0
    · exact acc_inv_first m c ⟨k + 1, hn⟩ h0
    · exact acc_inv_step m c ⟨k + 1, hn⟩ h0 (ih (Nat.lt_of_succ_lt hn))

theorem acc0_full (c : Dev nD) (t : Fin cfg0.N) (h1 : t.val % 125 = 124) (p : Fin 128) (l : Fin 32) :
    ((outsAt0 m c t.val t.isLt).2.2.2.2.1 : Vec Ideal S128x32 .f32) (ix2 p l)
      = pick (tab m c) (rowOf t.val t.isLt p) (koA m c (ix2 (rowOf t.val t.isLt p) l)) := by
  refine ((acc_inv m c t.val t.isLt).1 p l).trans ?_
  have e : t.val % 125 + 1 = 125 := by omega
  rw [e]
  exact cutSum_select_pick (tab m c) (rowOf t.val t.isLt p) (koA m c (ix2 (rowOf t.val t.isLt p) l))

theorem acc1_full (c : Dev nD) (t : Fin cfg0.N) (h1 : t.val % 125 = 124) (p : Fin 128) (l : Fin 32) :
    ((outsAt0 m c t.val t.isLt).2.2.2.2.2.1 : Vec Ideal S128x32 .f32) (ix2 p l)
      = pick (tab m c) (rowOf t.val t.isLt p) (enA m c (ix2 (rowOf t.val t.isLt p) l)) := by
  refine ((acc_inv m c t.val t.isLt).2.1 p l).trans ?_
  have e : t.val % 125 + 1 = 125 := by omega
  rw [e]
  exact cutSum_select_pick (tab m c) (rowOf t.val t.isLt p) (enA m c (ix2 (rowOf t.val t.isLt p) l))

theorem acc2_full (c : Dev nD) (t : Fin cfg0.N) (h1 : t.val % 125 = 124) (p : Fin 128) (k : Fin 1024) :
    ((outsAt0 m c t.val t.isLt).2.2.2.2.2.2 : Vec Ideal S128x1024 .f32) (ix2 p k)
      = pick (tab m c) (rowOf t.val t.isLt p) (ntA m c (ix2 0 k)) := by
  refine ((acc_inv m c t.val t.isLt).2.2 p k).trans ?_
  have e : t.val % 125 + 1 = 125 := by omega
  rw [e]
  exact cutSum_onehot_pick (tab m c) (rowOf t.val t.isLt p) (ntA m c (ix2 0 k))

theorem out6_at (c : Dev nD) (t : Fin cfg0.N) (h1 : t.val % 125 = 124) (p : Fin 128) (b : Fin 256)
    (hb : rowOf t.val t.isLt p = b) :
    ((outsAt0 m c t.val t.isLt).1 : Vec Ideal S128x1 .f32) (ix2 p 0)
      = rowMean (klA m c (ix2 b 0)) (fun l => nlog (pick (tab m c) b (koA m c (ix2 b l)))) := by
  subst hb
  have h0 : ¬t.val % 125 = 0 := by omega
  refine (congrFun (out6_C m c t h0 h1) (ix2 p 0)).trans ?_
  refine (selfFin_apply _ _ p).trans ?_
  exact congrArg₂ rowMean (blk2_apply m c t p) (funext fun l => congrArg nlog (acc0_full m c t h1 p l))

theorem out7_at (c : Dev nD) (t : Fin cfg0.N) (h1 : t.val % 125 = 124) (p : Fin 128) (b : Fin 256)
    (hb : rowOf t.val t.isLt p = b) :
    ((outsAt0 m c t.val t.isLt).2.1 : Vec Ideal S128x1 .f32) (ix2 p 0)
      = rowMean (elA m c (ix2 b 0)) (fun l => nlog (pick (tab m c) b (enA m c (ix2 b l)))) := by
  subst hb
  have h0 : ¬t.val % 125 = 0 := by omega
  refine (congrFun (out7_C m c t h0 h1) (ix2 p 0)).trans ?_
  refine (targetFin_apply _ _ p).trans ?_
  exact congrArg₂ rowMean (blk3_apply m c t p) (funext fun l => congrArg nlog (acc1_full m c t h1 p l))

theorem out8_at (c : Dev nD) (t : Fin cfg0.N) (h1 : t.val % 125 = 124) (p : Fin 128) (b : Fin 256)
    (hb : rowOf t.val t.isLt p = b) :
    ((outsAt0 m c t.val t.isLt).2.2.1 : Vec Ideal S128x1 .f32) (ix2 p 0)
      = rowMean (elA m c (ix2 b 0)) (fun l => hinge (pick (tab m c) b (enA m c (ix2 b l)))) := by
  subst hb
  have h0 : ¬t.val % 125 = 0 := by omega
  refine (congrFun (out8_C m c t h0 h1) (ix2 p 0)).trans ?_
  refine (marginFin_apply _ _ p).trans ?_
  exact congrArg₂ rowMean (blk3_apply m c t p) (funext fun l => congrArg hinge (acc1_full m c t h1 p l))

theorem out9_at (c : Dev nD) (t : Fin cfg0.N) (h1 : t.val % 125 = 124) (p : Fin 128) (b : Fin 256)
    (hb : rowOf t.val t.isLt p = b) :
    ((outsAt0 m c t.val t.isLt).2.2.2.1 : Vec Ideal S128x1 .f32) (ix2 p 0)
      = Ideal.div (∑ n : Fin 1024, over (pick (tab m c) b (ntA m c (ix2 0 n)))) (Ideal.ofBits .f32 0x44800000#32) := by
  subst hb
  have h0 : ¬t.val % 125 = 0 := by omega
  refine (congrFun (out9_C m c t h0 h1) (ix2 p 0)).trans ?_
  refine (negFin_apply _ p).trans ?_
  exact congrArg (fun s => Ideal.div s (Ideal.ofBits .f32 0x44800000#32))
    (Finset.sum_congr rfl fun n _ => congrArg over (acc2_full m c t h1 p n))

theorem lastPos_lt (bi : Fin 2) : 125 * bi.val + 124 < cfg0.N := by
  have := bi.isLt; have h : cfg0.N = 250 := N_0; omega

abbrev lastRow (bi : Fin 2) (p : Fin 128) : Fin 256 :=
  ⟨128 * bi.val + p.val, by have := bi.isLt; have := p.isLt; omega⟩

theorem rowOf_last (bi : Fin 2) (p : Fin 128) : rowOf (125 * bi.val + 124) (lastPos_lt bi) p = lastRow bi p := by
  apply Fin.ext
  show 128 * ((125 * bi.val + 124) / 125) + p.val = 128 * bi.val + p.val
  have := bi.isLt
  omega

theorem out6_last (c : Dev nD) (bi : Fin 2) (p : Fin 128) :
    ((outsAt0 m c (125 * bi.val + 124) (lastPos_lt bi)).1 : Vec Ideal S128x1 .f32) (ix2 p 0)
      = rowMean (klA m c (ix2 (lastRow bi p) 0))
          (fun l => nlog (pick (tab m c) (lastRow bi p) (koA m c (ix2 (lastRow bi p) l)))) :=
  out6_at m c ⟨125 * bi.val + 124, lastPos_lt bi⟩ (by show (125 * bi.val + 124) % 125 = 124; omega) p _ (rowOf_last bi p)

theorem out7_last (c : Dev nD) (bi : Fin 2) (p : Fin 128) :
    ((outsAt0 m c (125 * bi.val + 124) (lastPos_lt bi)).2.1 : Vec Ideal S128x1 .f32) (ix2 p 0)
      = rowMean (elA m c (ix2 (lastRow bi p) 0))
          (fun l => nlog (pick (tab m c) (lastRow bi p) (enA m c (ix2 (lastRow bi p) l)))) :=
  out7_at m c ⟨125 * bi.val + 124, lastPos_lt bi⟩ (by show (125 * bi.val + 124) % 125 = 124; omega) p _ (rowOf_last bi p)

theorem out8_last (c : Dev nD) (bi : Fin 2) (p : Fin 128) :
    ((outsAt0 m c (125 * bi.val + 124) (lastPos_lt bi)).2.2.1 : Vec Ideal S128x1 .f32) (ix2 p 0)
      = rowMean (elA m c (ix2 (lastRow bi p) 0))
          (fun l => hinge (pick (tab m c) (lastRow bi p) (enA m c (ix2 (lastRow bi p) l)))) :=
  out8_at m c ⟨125 * bi.val + 124, lastPos_lt bi⟩ (by show (125 * bi.val + 124) % 125 = 124; omega) p _ (rowOf_last bi p)

theorem out9_last (c : Dev nD) (bi : Fin 2) (p : Fin 128) :
    ((outsAt0 m c (125 * bi.val + 124) (lastPos_lt bi)).2.2.2.1 : Vec Ideal S128x1 .f32) (ix2 p 0)
      = Ideal.div (∑ n : Fin 1024, over (pick (tab m c) (lastRow bi p) (ntA m c (ix2 0 n)))) (Ideal.ofBits .f32 0x44800000#32) :=
  out9_at m c ⟨125 * bi.val + 124, lastPos_lt bi⟩ (by show (125 * bi.val + 124) % 125 = 124; omega) p _ (rowOf_last bi p)

end Cert.KernelIdeal.Fr

end
-- ==== Proof.KI.Tail.lean ====
import proofs.«414535_j24696061952429_1_alg».proof.Proof.Gen.KernelIdeal.Launch
import proofs.«414535_j24696061952429_1_alg».proof.Proof.Spec
import Idealize.ShloMosaic.Lib.Pipeline.Value
import Idealize.ShloMosaic.Lib.ValueIdx
import Idealize.ShloMosaic.PureOps.Ideal.Laws

noncomputable section

namespace Cert.KernelIdeal.Fr

open Idealize.ShloMosaic Idealize.ShloMosaic.ValueIdx
open scoped BigOperators

open Cert.KernelIdeal.Gen

variable {F : FTy → Type} [FloatOps F]

def tail4 (a6 a7 a8 a9 : Vec F S256x1 .f32) : Vec F S4 .f32 :=
  concatenate S4 0 [⟨S1, broadcastInDim S1 ![] bcast_S_S1 (Host.divf (Host.reduceAdd a6 (constant S_ .f32 0x00000000#32) reducesTo_S256x1_S_d0_1 h_S_) (constant S_ .f32 0x43800000#32))⟩,
    ⟨S1, broadcastInDim S1 ![] bcast_S_S1 (Host.divf (Host.reduceAdd a7 (constant S_ .f32 0x00000000#32) reducesTo_S256x1_S_d0_1 h_S_) (constant S_ .f32 0x43800000#32))⟩,
    ⟨S1, broadcastInDim S1 ![] bcast_S_S1 (Host.divf (Host.reduceAdd a8 (constant S_ .f32 0x00000000#32) reducesTo_S256x1_S_d0_1 h_S_) (constant S_ .f32 0x43800000#32))⟩,
    ⟨S1, broadcastInDim S1 ![] bcast_S_S1 (Host.divf (Host.reduceAdd a9 (constant S_ .f32 0x00000000#32) reducesTo_S256x1_S_d0_1 h_S_) (constant S_ .f32 0x43800000#32))⟩] concatenates_S1_S1_S1_S1_S4_d0

theorem concat4_apply {α : Type} (x0 x1 x2 x3 : S1.Idx → α) (j : S4.Idx) :
    concatenate S4 0 [⟨S1, x0⟩, ⟨S1, x1⟩, ⟨S1, x2⟩, ⟨S1, x3⟩] concatenates_S1_S1_S1_S1_S4_d0 j = ![x0, x1, x2, x3] (j 0) (ix1 0) :=
  concatenate_ofFn_unit_apply (t := S4) (s₁ := S1) 0 (fun n : Fin 4 => ![x0, x1, x2, x3] n) concatenates_S1_S1_S1_S1_S4_d0 rfl rfl j (j 0) rfl (ix1 0)
    (fun b hb => absurd (Subsingleton.elim _ _) hb)

theorem tailPiece_ideal (a : Vec Ideal S256x1 .f32) (i : S1.Idx) :
    broadcastInDim S1 ![] bcast_S_S1 (Host.divf (F := Ideal) (Host.reduceAdd a (constant S_ .f32 0x00000000#32) reducesTo_S256x1_S_d0_1 h_S_) (constant S_ .f32 0x43800000#32)) i
      = Cert.TermLoss.batchMean fun b => a (ix2 b 0) := by
  show Ideal.div (Ideal.hostReduceAdd reducesTo_S256x1_S_d0_1 a (Ideal.ofBits .f32 0x00000000#32) _) (Ideal.ofBits .f32 0x43800000#32) = _
  rw [Ideal.hostReduceAdd_total reducesTo_S256x1_S_d0_1 (fun b => b.elim0), Ideal.ofBits_zero_f32, zero_add, sum_idx2]
  unfold Cert.TermLoss.batchMean
  refine congrArg (fun s => Ideal.div s _) (Finset.sum_congr rfl fun b _ => ?_)
  exact Fin.sum_univ_one _

theorem tail4_ideal (a6 a7 a8 a9 : Vec Ideal S256x1 .f32) :
    tail4 (F := Ideal) a6 a7 a8 a9 = Cert.TermLoss.losses (Cert.TermLoss.batchMean fun b => a6 (ix2 b 0)) (Cert.TermLoss.batchMean fun b => a7 (ix2 b 0)) (Cert.TermLoss.batchMean fun b => a8 (ix2 b 0)) (Cert.TermLoss.batchMean fun b => a9 (ix2 b 0)) := by
  funext j
  unfold tail4
  rw [concat4_apply]
  have key : ∀ k : Fin 4, ![broadcastInDim S1 ![] bcast_S_S1 (Host.divf (F := Ideal) (Host.reduceAdd a6 (constant S_ .f32 0x00000000#32) reducesTo_S256x1_S_d0_1 h_S_) (constant S_ .f32 0x43800000#32)),
      broadcastInDim S1 ![] bcast_S_S1 (Host.divf (F := Ideal) (Host.reduceAdd a7 (constant S_ .f32 0x00000000#32) reducesTo_S256x1_S_d0_1 h_S_) (constant S_ .f32 0x43800000#32)),
      broadcastInDim S1 ![] bcast_S_S1 (Host.divf (F := Ideal) (Host.reduceAdd a8 (constant S_ .f32 0x00000000#32) reducesTo_S256x1_S_d0_1 h_S_) (constant S_ .f32 0x43800000#32)),
      broadcastInDim S1 ![] bcast_S_S1 (Host.divf (F := Ideal) (Host.reduceAdd a9 (constant S_ .f32 0x00000000#32) reducesTo_S256x1_S_d0_1 h_S_) (constant S_ .f32 0x43800000#32))] k (ix1 0)
      = ![Cert.TermLoss.batchMean fun b => a6 (ix2 b 0), Cert.TermLoss.batchMean fun b => a7 (ix2 b 0), Cert.TermLoss.batchMean fun b => a8 (ix2 b 0), Cert.TermLoss.batchMean fun b => a9 (ix2 b 0)] k := by
    intro k
    fin_cases k <;> exact tailPiece_ideal _ _
  exact key (j 0)

end Cert.KernelIdeal.Fr

end
-- ==== Proof.KI.Outputs.lean ====
import proofs.«414535_j24696061952429_1_alg».proof.Proof.KI.Frame
import proofs.«414535_j24696061952429_1_alg».proof.Proof.KI.Tail
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal.Gen

variable {F : FTy → Type} [FloatOps F]

variable (m : (ℓ : Loc nD τ sig) → Buf (Elt F) ℓ) (ρ : Dev nD → PrngReg)

theorem idx_facts6 : ∀ t : Fin cfg0.N, win0_6.index t (0 : Fin 2) = t.val / 125 ∧ win0_6.index t (1 : Fin 2) = 0 :=
  (by decide +kernel : ∀ t : Fin grid0.N, _)

theorem mem_blk6 (t : Fin cfg0.N) (i : S256x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v3_0).slice (win0_6.rect t)).set ↔ _
  rw [View.set_slice_whole, Rect.mem_set_unit]
  exact Iff.rfl

/-- Only the last-tile point of each batch block writes the column back, each its own 128 rows, so the column is what those two points stored. -/
theorem arr6_eq (c : Dev nD) (G : Vec F S256x1 .f32)
    (h : ∀ (bi : Fin 2) (p : Fin 128), ((outsAt0 m c (125 * bi.val + 124) (by have := bi.isLt; have h : cfg0.N = 250 := N_0; omega)).1 : Vec F S128x1 .f32) (ix2 p 0)
      = G (ix2 ⟨128 * bi.val + p.val, by have := bi.isLt; have := p.isLt; omega⟩ 0)) :
    (dats m 0 c).arrAt 6 cfg0.N = G := by
  have hN : cfg0.N = 250 := N_0
  refine (dats m 0 c).arrAt_eq_of_cover 6 G (fun t hf => ?_) (fun i => ?_)
  · have ht : t.val % 125 = 124 := (flush0_6 t).mp hf
    have hlt : t.val < cfg0.N := t.isLt
    obtain ⟨e0, e1⟩ := idx_facts6 t
    show (cfg0.win 6).cut (grid0.coords t) ((dats m 0 c).after 6 t) = _
    rw [after0_6]
    funext j
    have hj0 : (j 0).val < 128 := (j 0).isLt
    have hj1 : (j 1).val < 1 := (j 1).isLt
    have hb : t.val / 125 < 2 := by omega
    have key : ∀ (n : ℕ) (hn : n < cfg0.N), n = t.val → (outsAt0 m c n hn).1 = (outsAt0 m c t.val t.isLt).1 := by
      intro n hn e; subst e; rfl
    have hsp := h ⟨t.val / 125, hb⟩ ⟨(j 0).val, hj0⟩
    rw [key _ _ (show 125 * (t.val / 125) + 124 = t.val by omega)] at hsp
    have hx : win0_6.xinj (grid0.coords t) j = ix2 ⟨(j 0).val, hj0⟩ 0 := by
      funext a
      match a with
      | ⟨0, _⟩ => rfl
      | ⟨1, _⟩ => exact Fin.ext (by show (j 1).val = 0; omega)
    have hemb : ((cfg0.win 6).blk t).view.emb j = ix2 ⟨128 * (t.val / 125) + (j 0).val, by omega⟩ 0 := by
      funext a; apply Fin.ext
      match a with
      | ⟨0, _⟩ => show win0_6.index t (0 : Fin 2) * 128 + 1 * (j 0).val = 128 * (t.val / 125) + (j 0).val; omega
      | ⟨1, _⟩ => show win0_6.index t (1 : Fin 2) * 1 + 1 * (j 1).val = 0; omega
    show (outsAt0 m c t.val t.isLt).1 (win0_6.xinj (grid0.coords t) j) = G (((cfg0.win 6).blk t).view.emb j)
    rw [hx, hemb]
    exact hsp
  · have hi0 : (i 0).val < 256 := (i 0).isLt
    have hi1 : (i 1).val < 1 := (i 1).isLt
    have htl : 125 * ((i 0).val / 128) + 124 < cfg0.N := by omega
    obtain ⟨e0, e1⟩ := idx_facts6 ⟨125 * ((i 0).val / 128) + 124, htl⟩
    refine ⟨⟨125 * ((i 0).val / 128) + 124, htl⟩, (flush0_6 _).mpr (by show (125 * ((i 0).val / 128) + 124) % 125 = 124; omega), ?_⟩
    rw [mem_blk6]
    intro a
    have q0 : win0_6.index ⟨125 * ((i 0).val / 128) + 124, htl⟩ (0 : Fin 2) = (i 0).val / 128 := by
      rw [e0]; show (125 * ((i 0).val / 128) + 124) / 125 = (i 0).val / 128; omega
    match a with
    | ⟨0, _⟩ => show win0_6.index ⟨125 * ((i 0).val / 128) + 124, htl⟩ (0 : Fin 2) * 128 ≤ (i 0).val ∧ (i 0).val < win0_6.index ⟨125 * ((i 0).val / 128) + 124, htl⟩ (0 : Fin 2) * 128 + 128; omega
    | ⟨1, _⟩ => show win0_6.index ⟨125 * ((i 0).val / 128) + 124, htl⟩ (1 : Fin 2) * 1 ≤ (i 1).val ∧ (i 1).val < win0_6.index ⟨125 * ((i 0).val / 128) + 124, htl⟩ (1 : Fin 2) * 1 + 1; omega

theorem idx_facts7 : ∀ t : Fin cfg0.N, win0_7.index t (0 : Fin 2) = t.val / 125 ∧ win0_7.index t (1 : Fin 2) = 0 :=
  (by decide +kernel : ∀ t : Fin grid0.N, _)

theorem mem_blk7 (t : Fin cfg0.N) (i : S256x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v3_1).slice (win0_7.rect t)).set ↔ _
  rw [View.set_slice_whole, Rect.mem_set_unit]
  exact Iff.rfl

theorem arr7_eq (c : Dev nD) (G : Vec F S256x1 .f32)
    (h : ∀ (bi : Fin 2) (p : Fin 128), ((outsAt0 m c (125 * bi.val + 124) (by have := bi.isLt; have h : cfg0.N = 250 := N_0; omega)).2.1 : Vec F S128x1 .f32) (ix2 p 0)
      = G (ix2 ⟨128 * bi.val + p.val, by have := bi.isLt; have := p.isLt; omega⟩ 0)) :
    (dats m 0 c).arrAt 7 cfg0.N = G := by
  have hN : cfg0.N = 250 := N_0
  refine (dats m 0 c).arrAt_eq_of_cover 7 G (fun t hf => ?_) (fun i => ?_)
  · have ht : t.val % 125 = 124 := (flush0_7 t).mp hf
    have hlt : t.val < cfg0.N := t.isLt
    obtain ⟨e0, e1⟩ := idx_facts7 t
    show (cfg0.win 7).cut (grid0.coords t) ((dats m 0 c).after 7 t) = _
    rw [after0_7]
    funext j
    have hj0 : (j 0).val < 128 := (j 0).isLt
    have hj1 : (j 1).val < 1 := (j 1).isLt
    have hb : t.val / 125 < 2 := by omega
    have key : ∀ (n : ℕ) (hn : n < cfg0.N), n = t.val → (outsAt0 m c n hn).2.1 = (outsAt0 m c t.val t.isLt).2.1 := by
      intro n hn e; subst e; rfl
    have hsp := h ⟨t.val / 125, hb⟩ ⟨(j 0).val, hj0⟩
    rw [key _ _ (show 125 * (t.val / 125) + 124 = t.val by omega)] at hsp
    have hx : win0_7.xinj (grid0.coords t) j = ix2 ⟨(j 0).val, hj0⟩ 0 := by
      funext a
      match a with
      | ⟨0, _⟩ => rfl
      | ⟨1, _⟩ => exact Fin.ext (by show (j 1).val = 0; omega)
    have hemb : ((cfg0.win 7).blk t).view.emb j = ix2 ⟨128 * (t.val / 125) + (j 0).val, by omega⟩ 0 := by
      funext a; apply Fin.ext
      match a with
      | ⟨0, _⟩ => show win0_7.index t (0 : Fin 2) * 128 + 1 * (j 0).val = 128 * (t.val / 125) + (j 0).val; omega
      | ⟨1, _⟩ => show win0_7.index t (1 : Fin 2) * 1 + 1 * (j 1).val = 0; omega
    show (outsAt0 m c t.val t.isLt).2.1 (win0_7.xinj (grid0.coords t) j) = G (((cfg0.win 7).blk t).view.emb j)
    rw [hx, hemb]
    exact hsp
  · have hi0 : (i 0).val < 256 := (i 0).isLt
    have hi1 : (i 1).val < 1 := (i 1).isLt
    have htl : 125 * ((i 0).val / 128) + 124 < cfg0.N := by omega
    obtain ⟨e0, e1⟩ := idx_facts7 ⟨125 * ((i 0).val / 128) + 124, htl⟩
    refine ⟨⟨125 * ((i 0).val / 128) + 124, htl⟩, (flush0_7 _).mpr (by show (125 * ((i 0).val / 128) + 124) % 125 = 124; omega), ?_⟩
    rw [mem_blk7]
    intro a
    have q0 : win0_7.index ⟨125 * ((i 0).val / 128) + 124, htl⟩ (0 : Fin 2) = (i 0).val / 128 := by
      rw [e0]; show (125 * ((i 0).val / 128) + 124) / 125 = (i 0).val / 128; omega
    match a with
    | ⟨0, _⟩ => show win0_7.index ⟨125 * ((i 0).val / 128) + 124, htl⟩ (0 : Fin 2) * 128 ≤ (i 0).val ∧ (i 0).val < win0_7.index ⟨125 * ((i 0).val / 128) + 124, htl⟩ (0 : Fin 2) * 128 + 128; omega
    | ⟨1, _⟩ => show win0_7.index ⟨125 * ((i 0).val / 128) + 124, htl⟩ (1 : Fin 2) * 1 ≤ (i 1).val ∧ (i 1).val < win0_7.index ⟨125 * ((i 0).val / 128) + 124, htl⟩ (1 : Fin 2) * 1 + 1; omega

theorem idx_facts8 : ∀ t : Fin cfg0.N, win0_8.index t (0 : Fin 2) = t.val / 125 ∧ win0_8.index t (1 : Fin 2) = 0 :=
  (by decide +kernel : ∀ t : Fin grid0.N, _)

theorem mem_blk8 (t : Fin cfg0.N) (i : S256x1.Idx) :
    i ∈ ((cfg0.win 8).blk t).view.set ↔ ∀ a : Fin 2, win0_8.index t a * S128x1.size a ≤ (i a).val ∧ (i a).val < win0_8.index t a * S128x1.size a + S128x1.size a := by
  show i ∈ ((View.whole main_v3_2).slice (win0_8.rect t)).set ↔ _
  rw [View.set_slice_whole, Rect.mem_set_unit]
  exact Iff.rfl

theorem arr8_eq (c : Dev nD) (G : Vec F S256x1 .f32)
    (h : ∀ (bi : Fin 2) (p : Fin 128), ((outsAt0 m c (125 * bi.val + 124) (by have := bi.isLt; have h : cfg0.N = 250 := N_0; omega)).2.2.1 : Vec F S128x1 .f32) (ix2 p 0)
      = G (ix2 ⟨128 * bi.val + p.val, by have := bi.isLt; have := p.isLt; omega⟩ 0)) :
    (dats m 0 c).arrAt 8 cfg0.N = G := by
  have hN : cfg0.N = 250 := N_0
  refine (dats m 0 c).arrAt_eq_of_cover 8 G (fun t hf => ?_) (fun i => ?_)
  · have ht : t.val % 125 = 124 := (flush0_8 t).mp hf
    have hlt : t.val < cfg0.N := t.isLt
    obtain ⟨e0, e1⟩ := idx_facts8 t
    show (cfg0.win 8).cut (grid0.coords t) ((dats m 0 c).after 8 t) = _
    rw [after0_8]
    funext j
    have hj0 : (j 0).val < 128 := (j 0).isLt
    have hj1 : (j 1).val < 1 := (j 1).isLt
    have hb : t.val / 125 < 2 := by omega
    have key : ∀ (n : ℕ) (hn : n < cfg0.N), n = t.val → (outsAt0 m c n hn).2.2.1 = (outsAt0 m c t.val t.isLt).2.2.1 := by
      intro n hn e; subst e; rfl
    have hsp := h ⟨t.val / 125, hb⟩ ⟨(j 0).val, hj0⟩
    rw [key _ _ (show 125 * (t.val / 125) + 124 = t.val by omega)] at hsp
    have hx : win0_8.xinj (grid0.coords t) j = ix2 ⟨(j 0).val, hj0⟩ 0 := by
      funext a
      match a with
      | ⟨0, _⟩ => rfl
      | ⟨1, _⟩ => exact Fin.ext (by show (j 1).val = 0; omega)
    have hemb : ((cfg0.win 8).blk t).view.emb j = ix2 ⟨128 * (t.val / 125) + (j 0).val, by omega⟩ 0 := by
      funext a; apply Fin.ext
      match a with
      | ⟨0, _⟩ => show win0_8.index t (0 : Fin 2) * 128 + 1 * (j 0).val = 128 * (t.val / 125) + (j 0).val; omega
      | ⟨1, _⟩ => show win0_8.index t (1 : Fin 2) * 1 + 1 * (j 1).val = 0; omega
    show (outsAt0 m c t.val t.isLt).2.2.1 (win0_8.xinj (grid0.coords t) j) = G (((cfg0.win 8).blk t).view.emb j)
    rw [hx, hemb]
    exact hsp
  · have hi0 : (i 0).val < 256 := (i 0).isLt
    have hi1 : (i 1).val < 1 := (i 1).isLt
    have htl : 125 * ((i 0).val / 128) + 124 < cfg0.N := by omega
    obtain ⟨e0, e1⟩ := idx_facts8 ⟨125 * ((i 0).val / 128) + 124, htl⟩
    refine ⟨⟨125 * ((i 0).val / 128) + 124, htl⟩, (flush0_8 _).mpr (by show (125 * ((i 0).val / 128) + 124) % 125 = 124; omega), ?_⟩
    rw [mem_blk8]
    intro a
    have q0 : win0_8.index ⟨125 * ((i 0).val / 128) + 124, htl⟩ (0 : Fin 2) = (i 0).val / 128 := by
      rw [e0]; show (125 * ((i 0).val / 128) + 124) / 125 = (i 0).val / 128; omega
    match a with
    | ⟨0, _⟩ => show win0_8.index ⟨125 * ((i 0).val / 128) + 124, htl⟩ (0 : Fin 2) * 128 ≤ (i 0).val ∧ (i 0).val < win0_8.index ⟨125 * ((i 0).val / 128) + 124, htl⟩ (0 : Fin 2) * 128 + 128; omega
    | ⟨1, _⟩ => show win0_8.index ⟨125 * ((i 0).val / 128) + 124, htl⟩ (1 : Fin 2) * 1 ≤ (i 1).val ∧ (i 1).val < win0_8.index ⟨125 * ((i 0).val / 128) + 124, htl⟩ (1 : Fin 2) * 1 + 1; omega

theorem idx_facts9 : ∀ t : Fin cfg0.N, win0_9.index t (0 : Fin 2) = t.val / 125 ∧ win0_9.index t (1 : Fin 2) = 0 :=
  (by decide +kernel : ∀ t : Fin grid0.N, _)

theorem mem_blk9 (t : Fin cfg0.N) (i : S256x1.Idx) :
    i ∈ ((cfg0.win 9).blk t).view.set ↔ ∀ a : Fin 2, win0_9.index t a * S128x1.size a ≤ (i a).val ∧ (i a).val < win0_9.index t a * S128x1.size a + S128x1.size a := by
  show i ∈ ((View.whole main_v3_3).slice (win0_9.rect t)).set ↔ _
  rw [View.set_slice_whole, Rect.mem_set_unit]
  exact Iff.rfl

theorem arr9_eq (c : Dev nD) (G : Vec F S256x1 .f32)
    (h : ∀ (bi : Fin 2) (p : Fin 128), ((outsAt0 m c (125 * bi.val + 124) (by have := bi.isLt; have h : cfg0.N = 250 := N_0; omega)).2.2.2.1 : Vec F S128x1 .f32) (ix2 p 0)
      = G (ix2 ⟨128 * bi.val + p.val, by have := bi.isLt; have := p.isLt; omega⟩ 0)) :
    (dats m 0 c).arrAt 9 cfg0.N = G := by
  have hN : cfg0.N = 250 := N_0
  refine (dats m 0 c).arrAt_eq_of_cover 9 G (fun t hf => ?_) (fun i => ?_)
  · have ht : t.val % 125 = 124 := (flush0_9 t).mp hf
    have hlt : t.val < cfg0.N := t.isLt
    obtain ⟨e0, e1⟩ := idx_facts9 t
    show (cfg0.win 9).cut (grid0.coords t) ((dats m 0 c).after 9 t) = _
    rw [after0_9]
    funext j
    have hj0 : (j 0).val < 128 := (j 0).isLt
    have hj1 : (j 1).val < 1 := (j 1).isLt
    have hb : t.val / 125 < 2 := by omega
    have key : ∀ (n : ℕ) (hn : n < cfg0.N), n = t.val → (outsAt0 m c n hn).2.2.2.1 = (outsAt0 m c t.val t.isLt).2.2.2.1 := by
      intro n hn e; subst e; rfl
    have hsp := h ⟨t.val / 125, hb⟩ ⟨(j 0).val, hj0⟩
    rw [key _ _ (show 125 * (t.val / 125) + 124 = t.val by omega)] at hsp
    have hx : win0_9.xinj (grid0.coords t) j = ix2 ⟨(j 0).val, hj0⟩ 0 := by
      funext a
      match a with
      | ⟨0, _⟩ => rfl
      | ⟨1, _⟩ => exact Fin.ext (by show (j 1).val = 0; omega)
    have hemb : ((cfg0.win 9).blk t).view.emb j = ix2 ⟨128 * (t.val / 125) + (j 0).val, by omega⟩ 0 := by
      funext a; apply Fin.ext
      match a with
      | ⟨0, _⟩ => show win0_9.index t (0 : Fin 2) * 128 + 1 * (j 0).val = 128 * (t.val / 125) + (j 0).val; omega
      | ⟨1, _⟩ => show win0_9.index t (1 : Fin 2) * 1 + 1 * (j 1).val = 0; omega
    show (outsAt0 m c t.val t.isLt).2.2.2.1 (win0_9.xinj (grid0.coords t) j) = G (((cfg0.win 9).blk t).view.emb j)
    rw [hx, hemb]
    exact hsp
  · have hi0 : (i 0).val < 256 := (i 0).isLt
    have hi1 : (i 1).val < 1 := (i 1).isLt
    have htl : 125 * ((i 0).val / 128) + 124 < cfg0.N := by omega
    obtain ⟨e0, e1⟩ := idx_facts9 ⟨125 * ((i 0).val / 128) + 124, htl⟩
    refine ⟨⟨125 * ((i 0).val / 128) + 124, htl⟩, (flush0_9 _).mpr (by show (125 * ((i 0).val / 128) + 124) % 125 = 124; omega), ?_⟩
    rw [mem_blk9]
    intro a
    have q0 : win0_9.index ⟨125 * ((i 0).val / 128) + 124, htl⟩ (0 : Fin 2) = (i 0).val / 128 := by
      rw [e0]; show (125 * ((i 0).val / 128) + 124) / 125 = (i 0).val / 128; omega
    match a with
    | ⟨0, _⟩ => show win0_9.index ⟨125 * ((i 0).val / 128) + 124, htl⟩ (0 : Fin 2) * 128 ≤ (i 0).val ∧ (i 0).val < win0_9.index ⟨125 * ((i 0).val / 128) + 124, htl⟩ (0 : Fin 2) * 128 + 128; omega
    | ⟨1, _⟩ => show win0_9.index ⟨125 * ((i 0).val / 128) + 124, htl⟩ (1 : Fin 2) * 1 ≤ (i 1).val ∧ (i 1).val < win0_9.index ⟨125 * ((i 0).val / 128) + 124, htl⟩ (1 : Fin 2) * 1 + 1; omega

set_option maxHeartbeats 4000000 in
theorem tail_eq (c : Dev nD) : Pipeline.afterTail₀ cfgs (dats m) 0 (V0 m) [hostOps1] c main_v16
    = tail4 ((dats m 0 c).arrAt 6 cfg0.N) ((dats m 0 c).arrAt 7 cfg0.N) ((dats m 0 c).arrAt 8 cfg0.N) ((dats m 0 c).arrAt 9 cfg0.N) := by
  have h6 : Pipeline.withArrays spec0 c (V0 m c) (fun w => (dats m 0 c).arrAt w cfg0.N) (Proc.devRef .tc main_v3_0) = (dats m 0 c).arrAt 6 cfg0.N :=
    Pipeline.withArrays_arr spec0 launch0.win.arr_inj c _ _ 6
  have h7 : Pipeline.withArrays spec0 c (V0 m c) (fun w => (dats m 0 c).arrAt w cfg0.N) (Proc.devRef .tc main_v3_1) = (dats m 0 c).arrAt 7 cfg0.N :=
    Pipeline.withArrays_arr spec0 launch0.win.arr_inj c _ _ 7
  have h8 : Pipeline.withArrays spec0 c (V0 m c) (fun w => (dats m 0 c).arrAt w cfg0.N) (Proc.devRef .tc main_v3_2) = (dats m 0 c).arrAt 8 cfg0.N :=
    Pipeline.withArrays_arr spec0 launch0.win.arr_inj c _ _ 8
  have h9 : Pipeline.withArrays spec0 c (V0 m c) (fun w => (dats m 0 c).arrAt w cfg0.N) (Proc.devRef .tc main_v3_3) = (dats m 0 c).arrAt 9 cfg0.N :=
    Pipeline.withArrays_arr spec0 launch0.win.arr_inj c _ _ 9
  unfold Pipeline.afterTail₀
  show StableHlo.after hostOps1 (Pipeline.withArrays spec0 c (V0 m c) (fun w => (dats m 0 c).arrAt w cfg0.N)) (Proc.devRef .tc main_v16) = _
  simp only [StableHlo.after_cons, StableHlo.after_nil]
  rw [StableHlo.nary4_result]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rw [h6, h7, h8, h9]
  rfl

end Cert.KernelIdeal.Fr

end
-- ==== Proof.KI.PostArgs.lean ====
import proofs.«414535_j24696061952429_1_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem tail_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
private theorem tail_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
private theorem tail_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 5).trans (((dats 0 c).arrAt_in 5 rfl _).trans ((hA c 5).trans (V_main_arg0 m c))),
   ((h c).1 0).trans (((dats 0 c).arrAt_in 0 rfl _).trans ((hA c 0).trans (V_main_arg1 m c))),
   ((h c).2 main_arg2 (Pipeline.mem_restRefs_of main_arg2 (by decide) (by decide))).trans (tail_main_arg2 m dats c),
   ((h c).1 1).trans (((dats 0 c).arrAt_in 1 rfl _).trans ((hA c 1).trans (V_main_arg3 m c))),
   ((h c).2 main_arg4 (Pipeline.mem_restRefs_of main_arg4 (by decide) (by decide))).trans (tail_main_arg4 m dats c),
   ((h c).2 main_arg5 (Pipeline.mem_restRefs_of main_arg5 (by decide) (by decide))).trans (tail_main_arg5 m dats c)⟩

theorem result_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_v16) = Pipeline.afterTail₀ cfgs dats 0 (V0 m) [hostOps1] c main_v16 :=
  (h c).2 main_v16 (Pipeline.mem_restRefs_of main_v16 (by decide) (by decide))

end Cert.KernelIdeal.Fr

end
-- ==== Proof.KI.KernelValue.lean ====
import proofs.«414535_j24696061952429_1_alg».proof.Proof.KI.Accum
import proofs.«414535_j24696061952429_1_alg».proof.Proof.KI.Outputs
import proofs.«414535_j24696061952429_1_alg».proof.Proof.KI.PostArgs
import proofs.«414535_j24696061952429_1_alg».proof.Proof.GatherSum

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.TermLoss Idealize.ShloMosaic.ValueIdx

variable (m : (ℓ : Loc nD τ sig) → Buf (Elt Ideal) ℓ) (ρ : Dev nD → PrngReg)

def selfRows (c : Dev nD) : Vec Ideal S256x1 .f32 := fun j =>
  rowMean (klA m c (ix2 (j 0) 0)) (fun l => nlog (pick (tab m c) (j 0) (koA m c (ix2 (j 0) l))))
def targetRows (c : Dev nD) : Vec Ideal S256x1 .f32 := fun j =>
  rowMean (elA m c (ix2 (j 0) 0)) (fun l => nlog (pick (tab m c) (j 0) (enA m c (ix2 (j 0) l))))
def marginRows (c : Dev nD) : Vec Ideal S256x1 .f32 := fun j =>
  rowMean (elA m c (ix2 (j 0) 0)) (fun l => hinge (pick (tab m c) (j 0) (enA m c (ix2 (j 0) l))))
def negRows (c : Dev nD) : Vec Ideal S256x1 .f32 := fun j =>
  Ideal.div (∑ n : Fin 1024, over (pick (tab m c) (j 0) (ntA m c (ix2 0 n)))) (Ideal.ofBits .f32 0x44800000#32)

theorem arr6_rows (c : Dev nD) : (dats m 0 c).arrAt 6 cfg0.N = selfRows m c :=
  arr6_eq m c (selfRows m c) (fun bi p => out6_last m c bi p)
theorem arr7_rows (c : Dev nD) : (dats m 0 c).arrAt 7 cfg0.N = targetRows m c :=
  arr7_eq m c (targetRows m c) (fun bi p => out7_last m c bi p)
theorem arr8_rows (c : Dev nD) : (dats m 0 c).arrAt 8 cfg0.N = marginRows m c :=
  arr8_eq m c (marginRows m c) (fun bi p => out8_last m c bi p)
theorem arr9_rows (c : Dev nD) : (dats m 0 c).arrAt 9 cfg0.N = negRows m c :=
  arr9_eq m c (negRows m c) (fun bi p => out9_last m c bi p)

theorem self_mean (c : Dev nD) :
    (batchMean fun b => selfRows m c (ix2 b 0))
      = selfLoss (m ((c : Thread nD τ).loc main_arg0)) (fun b l => m ((c : Thread nD τ).loc main_arg1) (ix2 b l)) (fun b => m ((c : Thread nD τ).loc main_arg2) (ix1 b)) := by
  unfold selfLoss selfRows
  refine congrArg batchMean (funext fun b => ?_)
  show rowMean (klA m c (ix2 b 0)) (fun l => nlog (pick (tab m c) b (koA m c (ix2 b l)))) = _
  rw [show klA m c (ix2 b 0) = _ from V_v1_apply m c b, show tab m c = _ from V_main_arg0 m c, show koA m c = _ from V_main_arg1 m c]

theorem target_mean (c : Dev nD) :
    (batchMean fun b => targetRows m c (ix2 b 0))
      = targetLoss (m ((c : Thread nD τ).loc main_arg0)) (fun b l => m ((c : Thread nD τ).loc main_arg3) (ix2 b l)) (fun b => m ((c : Thread nD τ).loc main_arg4) (ix1 b)) := by
  unfold targetLoss targetRows
  refine congrArg batchMean (funext fun b => ?_)
  show rowMean (elA m c (ix2 b 0)) (fun l => nlog (pick (tab m c) b (enA m c (ix2 b l)))) = _
  rw [show elA m c (ix2 b 0) = _ from V_v2_apply m c b, show tab m c = _ from V_main_arg0 m c, show enA m c = _ from V_main_arg3 m c]

theorem margin_mean (c : Dev nD) :
    (batchMean fun b => marginRows m c (ix2 b 0))
      = marginLoss (m ((c : Thread nD τ).loc main_arg0)) (fun b l => m ((c : Thread nD τ).loc main_arg3) (ix2 b l)) (fun b => m ((c : Thread nD τ).loc main_arg4) (ix1 b)) := by
  unfold marginLoss marginRows
  refine congrArg batchMean (funext fun b => ?_)
  show rowMean (elA m c (ix2 b 0)) (fun l => hinge (pick (tab m c) b (enA m c (ix2 b l)))) = _
  rw [show elA m c (ix2 b 0) = _ from V_v2_apply m c b, show tab m c = _ from V_main_arg0 m c, show enA m c = _ from V_main_arg3 m c]

theorem neg_mean (c : Dev nD) :
    (batchMean fun b => negRows m c (ix2 b 0))
      = negLossByRows (m ((c : Thread nD τ).loc main_arg0)) (fun n => m ((c : Thread nD τ).loc main_arg5) (ix1 n)) := by
  unfold negLossByRows negRows
  refine congrArg batchMean (funext fun b => ?_)
  show Ideal.div (∑ n : Fin 1024, over (pick (tab m c) b (ntA m c (ix2 0 n)))) _ = _
  rw [show tab m c = _ from V_main_arg0 m c]
  refine congrArg (fun s => Ideal.div s _) (Finset.sum_congr rfl fun n _ => ?_)
  rw [show ntA m c (ix2 0 n) = _ from V_v0_apply m c n]

theorem result_value (c : Dev nD) (hfin : ∀ i, ∃ r : ℝ, (m ((c : Thread nD τ).loc main_arg0) : Vec Ideal S256x128000 .f32) i = (r : EReal)) :
    Pipeline.afterTail₀ cfgs (dats m) 0 (V0 m) [hostOps1] c main_v16
      = losses
          (selfLoss (m ((c : Thread nD τ).loc main_arg0)) (fun b l => m ((c : Thread nD τ).loc main_arg1) (ix2 b l)) (fun b => m ((c : Thread nD τ).loc main_arg2) (ix1 b)))
          (targetLoss (m ((c : Thread nD τ).loc main_arg0)) (fun b l => m ((c : Thread nD τ).loc main_arg3) (ix2 b l)) (fun b => m ((c : Thread nD τ).loc main_arg4) (ix1 b)))
          (marginLoss (m ((c : Thread nD τ).loc main_arg0)) (fun b l => m ((c : Thread nD τ).loc main_arg3) (ix2 b l)) (fun b => m ((c : Thread nD τ).loc main_arg4) (ix1 b)))
          (negLoss (m ((c : Thread nD τ).loc main_arg0)) (fun n => m ((c : Thread nD τ).loc main_arg5) (ix1 n))) := by
  rw [tail_eq m c, arr6_rows m c, arr7_rows m c, arr8_rows m c, arr9_rows m c, tail4_ideal,
    self_mean m c, target_mean m c, margin_mean m c, neg_mean m c, negLossByRows_eq _ _ hfin]

/-- After the last tile each running sum is the entry its id names; the mean of the row means is the single mean because the entries are real. -/
theorem kernel_value (hfin : ∀ (c : Dev nD) i, ∃ r : ℝ, (m ((c : Thread nD τ).loc main_arg0) : Vec Ideal S256x128000 .f32) i = (r : EReal)) :
    θ_run defs (onTc (τ := τ) (main (F := Ideal))) ⟨m, fun _ => 0, ρ⟩ (fun r => ∀ c : Dev nD,
      r.2.mem ((c.tc : Thread nD τ).loc main_v16) = losses
          (selfLoss (m ((c : Thread nD τ).loc main_arg0)) (fun b l => m ((c : Thread nD τ).loc main_arg1) (ix2 b l)) (fun b => m ((c : Thread nD τ).loc main_arg2) (ix1 b)))
          (targetLoss (m ((c : Thread nD τ).loc main_arg0)) (fun b l => m ((c : Thread nD τ).loc main_arg3) (ix2 b l)) (fun b => m ((c : Thread nD τ).loc main_arg4) (ix1 b)))
          (marginLoss (m ((c : Thread nD τ).loc main_arg0)) (fun b l => m ((c : Thread nD τ).loc main_arg3) (ix2 b l)) (fun b => m ((c : Thread nD τ).loc main_arg4) (ix1 b)))
          (negLoss (m ((c : Thread nD τ).loc main_arg0)) (fun n => m ((c : Thread nD τ).loc main_arg5) (ix1 n)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(result_of_post m (dats m) (A_eq m) r h c).trans (result_value m c (hfin c)), args_of_post m (dats m) (A_eq m) r h c⟩)
    (run_main m ρ)

end Cert.KernelIdeal.Fr

end
-- ==== Proof.RefGather.lean ====
import proofs.«414535_j24696061952429_1_alg».proof.ReferenceIdeal
import proofs.«414535_j24696061952429_1_alg».proof.Proof.Spec
import Idealize.ShloMosaic.Lib.StableHlo.Predicate
import Idealize.ShloMosaic.Lib.ValueIdx
import Idealize.ShloMosaic.Lib.Pipeline.Value
import Idealize.ShloMosaic.Lib.ReduceAll

noncomputable section

namespace Cert.TermLoss.Ref

open Cert.ReferenceIdeal Cert.ReferenceIdeal.Facts₀ Idealize.ShloMosaic Idealize.ShloMosaic.ValueIdx

section Gather
variable {α : Type}

abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

theorem gather_along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (l : Fin C) :
    Host.gather (alongDims R N C wf) x idx (ix2 b l)
      = x (ix2 b ⟨min (idx (ix3 b l 0)).toInt.toNat (N - 1), by omega⟩) := by
  have h0 : (alongDims R N C wf).start (ix2 b l) idx 0 + (alongDims R N C wf).batchCoord (ix2 b l) 0
      + (alongDims R N C wf).offCoord (ix2 b l) 0 = b.val := by
    rw [GatherDims.start_batching (alongDims R N C wf) (ix2 b l) idx 0 (List.mem_singleton.mpr rfl),
      GatherDims.offCoord_eq_zero (alongDims R N C wf) (ix2 b l) 0
        (fun h => ((GatherDims.mem_sKept _ _).mp h).2 (List.mem_singleton.mpr rfl))]
    simp only [Nat.zero_add, Nat.add_zero]
    rfl
  have h1 : (alongDims R N C wf).start (ix2 b l) idx 1 + (alongDims R N C wf).batchCoord (ix2 b l) 1
      + (alongDims R N C wf).offCoord (ix2 b l) 1 = min (idx (ix3 b l 0)).toInt.toNat (N - 1) := by
    rw [GatherDims.batchCoord_eq_zero (alongDims R N C wf) (ix2 b l) 1 (by show (1 : Fin 2) ∉ [(0 : Fin 2)]; decide),
      GatherDims.offCoord_eq_zero (alongDims R N C wf) (ix2 b l) 1
        (fun h => ((GatherDims.mem_sKept _ _).mp h).1 (List.mem_singleton.mpr rfl))]
    simp only [Nat.add_zero]
    unfold GatherDims.start
    rw [dif_pos (show (1 : Fin 2) ∈ (alongDims R N C wf).startIndexMap from List.mem_singleton.mpr rfl)]
    have hsi : (alongDims R N C wf).siIdx (ix2 b l) ⟨List.idxOf (1 : Fin 2) (alongDims R N C wf).startIndexMap,
        List.idxOf_lt_length_iff.2 (List.mem_singleton.mpr rfl)⟩ = ix3 b l 0 := by
      funext a; refine Fin.ext ?_
      match a with
      | ⟨0, _⟩ => rfl
      | ⟨1, _⟩ => rfl
      | ⟨2, _⟩ => rfl
    rw [hsi]
    rfl
  unfold Host.gather
  refine congrArg x (funext fun a => Fin.ext ?_)
  match a with
  | ⟨0, _⟩ => exact h0
  | ⟨1, _⟩ => exact h1

theorem gather_along_apply_of_lt {R N C : Nat} (hN : N ≤ 2 ^ 31)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ 32) (b : Fin R) (l : Fin C)
    (h : (idx (ix3 b l 0)).toNat < N) :
    Host.gather (alongDims R N C wf) x idx (ix2 b l) = x (ix2 b ⟨(idx (ix3 b l 0)).toNat, h⟩) := by
  rw [gather_along_apply (by omega) wf x idx b l]
  refine congrArg x (congrArg (ix2 b) (Fin.ext ?_))
  show min (idx (ix3 b l 0)).toInt.toNat (N - 1) = (idx (ix3 b l 0)).toNat
  rw [StableHlo.Predicate.toInt_eq_toNat_of_lt (by omega)]
  omega

abbrev colsDims (R N M : Nat)
    (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

theorem gather_cols_apply {R N M w : Nat} (hN : 0 < N)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ w) (b : Fin R) (n : Fin M) :
    Host.gather (colsDims R N M wf) x idx (ix2 b n)
      = x (ix2 b ⟨min (idx (ix2 n 0)).toInt.toNat (N - 1), by omega⟩) := by
  have h0 : (colsDims R N M wf).start (ix2 b n) idx 0 + (colsDims R N M wf).batchCoord (ix2 b n) 0
      + (colsDims R N M wf).offCoord (ix2 b n) 0 = b.val := by
    have hs : (colsDims R N M wf).start (ix2 b n) idx 0 = 0 := by
      unfold GatherDims.start
      exact dif_neg (by show (0 : Fin 2) ∉ [(1 : Fin 2)]; decide)
    rw [hs, GatherDims.batchCoord_eq_zero (colsDims R N M wf) (ix2 b n) 0 List.not_mem_nil]
    simp only [Nat.zero_add, Nat.add_zero]
    rfl
  have h1 : (colsDims R N M wf).start (ix2 b n) idx 1 + (colsDims R N M wf).batchCoord (ix2 b n) 1
      + (colsDims R N M wf).offCoord (ix2 b n) 1 = min (idx (ix2 n 0)).toInt.toNat (N - 1) := by
    rw [GatherDims.batchCoord_eq_zero (colsDims R N M wf) (ix2 b n) 1 List.not_mem_nil,
      GatherDims.offCoord_eq_zero (colsDims R N M wf) (ix2 b n) 1
        (fun h => ((GatherDims.mem_sKept _ _).mp h).1 (List.mem_singleton.mpr rfl))]
    simp only [Nat.add_zero]
    unfold GatherDims.start
    rw [dif_pos (show (1 : Fin 2) ∈ (colsDims R N M wf).startIndexMap from List.mem_singleton.mpr rfl)]
    have hsi : (colsDims R N M wf).siIdx (ix2 b n) ⟨List.idxOf (1 : Fin 2) (colsDims R N M wf).startIndexMap,
        List.idxOf_lt_length_iff.2 (List.mem_singleton.mpr rfl)⟩ = ix2 n 0 := by
      funext a; refine Fin.ext ?_
      match a with
      | ⟨0, _⟩ => rfl
      | ⟨1, _⟩ => rfl
    rw [hsi]
    rfl
  unfold Host.gather
  refine congrArg x (funext fun a => Fin.ext ?_)
  match a with
  | ⟨0, _⟩ => exact h0
  | ⟨1, _⟩ => exact h1

theorem gather_cols_apply_of_lt {R N M : Nat} (hN : N ≤ 2 ^ 31)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ 32) (b : Fin R) (n : Fin M)
    (h : (idx (ix2 n 0)).toNat < N) :
    Host.gather (colsDims R N M wf) x idx (ix2 b n) = x (ix2 b ⟨(idx (ix2 n 0)).toNat, h⟩) := by
  rw [gather_cols_apply (by omega) wf x idx b n]
  refine congrArg x (congrArg (ix2 b) (Fin.ext ?_))
  show min (idx (ix2 n 0)).toInt.toNat (N - 1) = (idx (ix2 n 0)).toNat
  rw [StableHlo.Predicate.toInt_eq_toNat_of_lt (by omega)]
  omega

end Gather

theorem slt_zero_of_lt (w : BitVec 32) (h : w.toNat < 128000) : IntOp.cmpi .slt w 0#32 = 0#1 :=
  eq_zero_of_ne_one fun e => by
    have h0 := (StableHlo.Predicate.slt_iff_toNat (a := w) (b := 0#32) (by omega) (by decide)).1 e
    have e0 : (0#32 : BitVec 32).toNat = 0 := rfl
    omega

theorem sge_zero_of_lt (w : BitVec 32) (h : w.toNat < 128000) : IntOp.cmpi .sge w 0#32 = 1#1 :=
  (StableHlo.Predicate.sge_iff_toNat (a := w) (b := 0#32) (by omega) (by decide)).2 (Nat.zero_le _)

theorem sle_max_of_lt (w : BitVec 32) (h : w.toNat < 128000) : IntOp.cmpi .sle w 127999#32 = 1#1 := by
  have e : (127999#32 : BitVec 32).toNat = 127999 := rfl
  exact (StableHlo.Predicate.sle_iff_toNat (a := w) (b := 127999#32) (by omega) (by decide)).2 (by omega)

theorem wrap_eq {s : Shape} (ids : IVec s 32) (hb : S_.BroadcastsInDim s (![] : Fin 0 → Fin s.rank))
    (hids : ∀ i, (ids i).toNat < 128000) :
    select (cmpi .slt ids (broadcastInDim s ![] hb (constantI S_ 32 0#32)))
      (addi ids (broadcastInDim s ![] hb (constantI S_ 32 128000#32))) ids = ids := by
  funext i
  rw [select_apply]
  show Scalar.select (IntOp.cmpi .slt (ids i) 0#32) _ _ = _
  rw [slt_zero_of_lt (ids i) (hids i), select_zero]

theorem foldl_andi_one {ι : Type} (f : ι → BitVec 1) : ∀ (l : List ι) (init : BitVec 1), init = 1#1 → (∀ n ∈ l, f n = 1#1) →
    l.foldl (fun r n => IntOp.andi r (f n)) init = 1#1
  | [], _, h, _ => h
  | a :: l, _, h, hl => foldl_andi_one f l _ (IntOp.andi_eq_one.2 ⟨h, hl a (List.mem_cons.2 (Or.inl rfl))⟩)
      (fun n hn => hl n (List.mem_cons.2 (Or.inr hn)))

theorem reduce_andi_one {s t u : Shape} {axes : List (Fin s.rank)} (p : s.Idx → BitVec 1) (init : u.Idx → BitVec 1)
    (h : s.ReducesTo axes t) (hu : 0 < u.numel) (j : t.Idx) (hi : ∀ k, init k = 1#1) (hp : ∀ i, p i = 1#1) :
    Host.reduce IntOp.andi p init h hu j = 1#1 := by
  rw [Host.reduce_eq_foldl]
  exact foldl_andi_one p _ _ (hi _) (fun n _ => hp n)

variable [Cert.ReferenceIdeal.Facts]

theorem gatherAlong_apply (x : FVec Ideal S256x128000 .f32) (idx : IVec S256x32x1 32) (b : Fin 256) (l : Fin 32)
    (h : (idx (ix3 b l 0)).toNat < 128000) :
    Host.gather gather_S256x128000_S256x32x1_S256x32_n_1_0_0_1_2_11 x idx (ix2 b l)
      = x (ix2 b ⟨(idx (ix3 b l 0)).toNat, h⟩) :=
  gather_along_apply_of_lt (by decide) gather_S256x128000_S256x32x1_S256x32_n_1_0_0_1_2_11_wf x idx b l h

theorem gatherCols_apply (x : FVec Ideal S256x128000 .f32) (idx : IVec S1024x1 32) (b : Fin 256) (n : Fin 1024)
    (h : (idx (ix2 n 0)).toNat < 128000) :
    Host.gather gather_S256x128000_S1024x1_S256x1024_0_1_n_n_1_1_2561 x idx (ix2 b n)
      = x (ix2 b ⟨(idx (ix2 n 0)).toNat, h⟩) :=
  gather_cols_apply_of_lt (by decide) gather_S256x128000_S1024x1_S256x1024_0_1_n_n_1_1_2561_wf x idx b n h

def takeAlong (x : FVec Ideal S256x128000 .f32) (ids : IVec S256x32 32) : FVec Ideal S256x32 .f32 :=
  select (Host.reduce IntOp.andi (andi (cmpi .sge (shapeCast _ (select (cmpi .slt ids (broadcastInDim S256x32 ![] bcast_S_S256x32 (constantI S_ 32 0#32))) (addi ids (broadcastInDim S256x32 ![] bcast_S_S256x32 (constantI S_ 32 128000#32))) ids) shapeCasts_S256x32_S256x32x1) (broadcastInDim S256x32x1 ![] bcast_S_S256x32x1 (constantI S_ 32 0#32))) (cmpi .sle (shapeCast _ (select (cmpi .slt ids (broadcastInDim S256x32 ![] bcast_S_S256x32 (constantI S_ 32 0#32))) (addi ids (broadcastInDim S256x32 ![] bcast_S_S256x32 (constantI S_ 32 128000#32))) ids) shapeCasts_S256x32_S256x32x1) (broadcastInDim S256x32x1 ![0, 1, 2] bcast_S1x1x1_S256x32x1_0_1_2 (broadcastInDim S1x1x1 ![2] bcast_S1_S1x1x1_2 (constantI S1 32 127999#32))))) (constantI S_ 1 1#1) reducesTo_S256x32x1_S256x32_d2 h_S_) (Host.gather gather_S256x128000_S256x32x1_S256x32_n_1_0_0_1_2_11 x (shapeCast _ (select (cmpi .slt ids (broadcastInDim S256x32 ![] bcast_S_S256x32 (constantI S_ 32 0#32))) (addi ids (broadcastInDim S256x32 ![] bcast_S_S256x32 (constantI S_ 32 128000#32))) ids) shapeCasts_S256x32_S256x32x1)) (broadcastInDim S256x32 ![] bcast_S_S256x32 (constant S_ .f32 0x7FC00000#32))

theorem reshape_ids_apply (ids : IVec S256x32 32) (b : Fin 256) (l : Fin 32) :
    shapeCast S256x32x1 ids shapeCasts_S256x32_S256x32x1 (ix3 b l 0) = ids (ix2 b l) :=
  shapeCast_apply ids shapeCasts_S256x32_S256x32x1 (ix3 b l 0) (ix2 b l) (by
    rw [Shape.rowMajor_val_two, Shape.rowMajor_val_three]
    show b.val * 32 + l.val = (b.val * 32 + l.val) * 1 + 0
    omega)

theorem takeAlong_apply (x : FVec Ideal S256x128000 .f32) (ids : IVec S256x32 32) (hids : ∀ i, (ids i).toNat < 128000)
    (b : Fin 256) (l : Fin 32) : takeAlong x ids (ix2 b l) = pick x b (ids (ix2 b l)) := by
  unfold takeAlong
  rw [wrap_eq ids bcast_S_S256x32 hids, select_apply]
  have hmask : Host.reduce IntOp.andi (andi (cmpi .sge (shapeCast S256x32x1 ids shapeCasts_S256x32_S256x32x1) (broadcastInDim S256x32x1 ![] bcast_S_S256x32x1 (constantI S_ 32 0#32))) (cmpi .sle (shapeCast S256x32x1 ids shapeCasts_S256x32_S256x32x1) (broadcastInDim S256x32x1 ![0, 1, 2] bcast_S1x1x1_S256x32x1_0_1_2 (broadcastInDim S1x1x1 ![2] bcast_S1_S1x1x1_2 (constantI S1 32 127999#32))))) (constantI S_ 1 1#1) reducesTo_S256x32x1_S256x32_d2 h_S_ (ix2 b l) = 1#1 := by
    refine reduce_andi_one _ _ _ _ _ (fun _ => rfl) (fun i => ?_)
    have hi : (shapeCast S256x32x1 ids shapeCasts_S256x32_S256x32x1 i).toNat < 128000 := hids (Shape.reshapeEquiv shapeCasts_S256x32_S256x32x1 i)
    show IntOp.andi (IntOp.cmpi .sge (shapeCast S256x32x1 ids shapeCasts_S256x32_S256x32x1 i) 0#32)
      (IntOp.cmpi .sle (shapeCast S256x32x1 ids shapeCasts_S256x32_S256x32x1 i) 127999#32) = 1#1
    exact IntOp.andi_eq_one.2 ⟨sge_zero_of_lt _ hi, sle_max_of_lt _ hi⟩
  rw [hmask, select_one]
  have hsc := reshape_ids_apply ids b l
  have hlt : (shapeCast S256x32x1 ids shapeCasts_S256x32_S256x32x1 (ix3 b l 0)).toNat < 128000 := by rw [hsc]; exact hids _
  rw [gatherAlong_apply x _ b l hlt]
  unfold pick
  rw [dif_pos (hids (ix2 b l))]
  exact congrArg x (congrArg (ix2 b) (Fin.ext (congrArg BitVec.toNat hsc)))

def takeCols (x : FVec Ideal S256x128000 .f32) (nt : IVec S1024 32) : FVec Ideal S256x1024 .f32 :=
  Host.gather gather_S256x128000_S1024x1_S256x1024_0_1_n_n_1_1_2561 x (broadcastInDim S1024x1 ![0] bcast_S1024_S1024x1_0 (select (cmpi .slt nt (broadcastInDim S1024 ![] bcast_S_S1024 (constantI S_ 32 0#32))) (addi nt (broadcastInDim S1024 ![] bcast_S_S1024 (constantI S_ 32 128000#32))) nt))

theorem column_ids_apply (nt : IVec S1024 32) (n : Fin 1024) :
    broadcastInDim S1024x1 ![0] bcast_S1024_S1024x1_0 nt (ix2 n 0) = nt (ix1 n) :=
  broadcastInDim_apply ![0] bcast_S1024_S1024x1_0 nt (ix2 n 0) (ix1 n) (fun a => match a with | ⟨0, _⟩ => rfl)

theorem takeCols_apply (x : FVec Ideal S256x128000 .f32) (nt : IVec S1024 32) (hnt : ∀ i, (nt i).toNat < 128000)
    (b : Fin 256) (n : Fin 1024) : takeCols x nt (ix2 b n) = pick x b (nt (ix1 n)) := by
  unfold takeCols
  rw [wrap_eq nt bcast_S_S1024 hnt]
  have hsc := column_ids_apply nt n
  have hlt : (broadcastInDim S1024x1 ![0] bcast_S1024_S1024x1_0 nt (ix2 n 0)).toNat < 128000 := by rw [hsc]; exact hnt _
  rw [gatherCols_apply x _ b n hlt]
  unfold pick
  rw [dif_pos (hnt (ix1 n))]
  exact congrArg x (congrArg (ix2 b) (Fin.ext (congrArg BitVec.toNat hsc)))

end Cert.TermLoss.Ref

end
-- ==== Proof.RefValue.lean ====
import proofs.«414535_j24696061952429_1_alg».proof.Proof.RefRead
import proofs.«414535_j24696061952429_1_alg».proof.Proof.RefGather
import Idealize.ShloMosaic.Lib.ValueIdxRank1

noncomputable section

open scoped BigOperators

namespace Cert.TermLoss.Ref

open Cert.ReferenceIdeal Cert.ReferenceIdeal.ReadP Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

theorem concat4_apply {α : Type} (p0 p1 p2 p3 : S1.Idx → α)
    (h : Shape.Concatenates ([(⟨S1, p0⟩ : (s : Shape) × (s.Idx → α)), ⟨S1, p1⟩, ⟨S1, p2⟩, ⟨S1, p3⟩].map (·.1)) S4 0) (k : Fin 4) :
    concatenate S4 0 [⟨S1, p0⟩, ⟨S1, p1⟩, ⟨S1, p2⟩, ⟨S1, p3⟩] h (ix1 k) = ![p0 (ix1 0), p1 (ix1 0), p2 (ix1 0), p3 (ix1 0)] k := by
  match k with
  | ⟨0, _⟩ =>
    exact concatenate_apply_piece (0 : Fin S4.rank) _ h _ 0 (by show (0 : Nat) < 4; decide) S1 p0 rfl rfl 0 rfl (ix1 0)
      (fun b hb => absurd (Subsingleton.elim _ _) hb) rfl
  | ⟨1, _⟩ =>
    exact concatenate_apply_piece (0 : Fin S4.rank) _ h _ 1 (by show (1 : Nat) < 4; decide) S1 p1 rfl rfl 1 rfl (ix1 0)
      (fun b hb => absurd (Subsingleton.elim _ _) hb) rfl
  | ⟨2, _⟩ =>
    exact concatenate_apply_piece (0 : Fin S4.rank) _ h _ 2 (by show (2 : Nat) < 4; decide) S1 p2 rfl rfl 2 rfl (ix1 0)
      (fun b hb => absurd (Subsingleton.elim _ _) hb) rfl
  | ⟨3, _⟩ =>
    exact concatenate_apply_piece (0 : Fin S4.rank) _ h _ 3 (by show (3 : Nat) < 4; decide) S1 p3 rfl rfl 3 rfl (ix1 0)
      (fun b hb => absurd (Subsingleton.elim _ _) hb) rfl

theorem v0_eq (x : FVec Ideal S256x128000 .f32) (ids : IVec S256x32 32) : val_main_v0 (F := Ideal) x ids = takeAlong x ids := rfl

theorem v1_eq (x : FVec Ideal S256x128000 .f32) (ids : IVec S256x32 32) : val_main_v1 (F := Ideal) x ids = takeAlong x ids := rfl

theorem v70_eq (x : FVec Ideal S256x128000 .f32) (nt : IVec S1024 32) : val_main_v70 (F := Ideal) x nt = takeCols x nt := rfl

theorem elt_self (x : FVec Ideal S256x128000 .f32) (ko : IVec S256x32 32) (klen : IVec S256 32) (hko : ∀ i, (ko i).toNat < 128000) (b : Fin 256) (l : Fin 32) :
    val_main_v12 (F := Ideal) x ko klen (ix2 b l)
      = Scalar.select (IntOp.cmpi .slt (BitVec.ofNat 32 l.val) (klen (ix1 b))) (nlog (pick x b (ko (ix2 b l)))) 0 := by
  have hrow : idx_main_v8 (idx_main_v10 (ix2 b l)) = ix1 b :=
    funext fun a => Fin.ext (by match a with | ⟨0, _⟩ => rfl)
  simp only [val_main_v12_apply, val_main_v11_apply, val_main_v9_apply, val_main_v7_apply, val_main_v6_apply, val_main_v10_apply, val_main_v8_apply, val_main_v5_apply, val_main_v4_apply, val_main_v3_apply, val_main_v2_apply, val_main_cst_apply, val_main_call2_v1_apply, val_main_call2_v0_apply, val_main_cst_0_apply]
  rw [v0_eq, takeAlong_apply x ko hko b l, hrow]
  simp only [Ideal.hostNegf_def, Ideal.negf_def, Ideal.hostUnary_log_def, Ideal.addf_def, Ideal.ofBits_def, Ideal.ofBits_zero_f32]
  rfl

theorem row_self (x : FVec Ideal S256x128000 .f32) (ko : IVec S256x32 32) (klen : IVec S256 32) (hko : ∀ i, (ko i).toNat < 128000) (b : Fin 256) :
    val_main_v20 (F := Ideal) x ko klen (ix1 b) = rowMean (klen (ix1 b)) fun l => nlog (pick x b (ko (ix2 b l))) := by
  have hidx : ∀ k : Fin 32, idx_main_v13 (ix1 b) k = ix2 b k := fun k =>
    funext fun a => Fin.ext (by match a with | ⟨0, _⟩ => rfl | ⟨1, _⟩ => rfl)
  have hsum : ∑ k : Fin 32, val_main_v12 (F := Ideal) x ko klen (idx_main_v13 (ix1 b) k)
      = ∑ l : Fin 32, Scalar.select (IntOp.cmpi .slt (BitVec.ofNat 32 l.val) (klen (ix1 b))) (nlog (pick x b (ko (ix2 b l)))) 0 :=
    Finset.sum_congr rfl fun k _ =>
      (congrArg (val_main_v12 (F := Ideal) x ko klen) (hidx k)).trans (elt_self x ko klen hko b k)
  simp only [val_main_v20_apply, val_main_v18_apply, val_main_v17_apply, val_main_c_2_apply, val_main_v19_apply, val_main_v13_apply, val_main_cst_1_apply, val_main_v16_apply, val_main_v15_apply, val_main_v14_apply, val_main_c_apply, val_main_call3_v1_apply, val_main_call3_v0_apply, val_main_cst_3_apply]
  rw [hsum]
  simp only [Ideal.hostDivf_def, Ideal.ofBits_def, Ideal.ofBits_zero_f32, zero_add]
  rfl

theorem self_eq (x : FVec Ideal S256x128000 .f32) (ko : IVec S256x32 32) (klen : IVec S256 32) (hko : ∀ i, (ko i).toNat < 128000) (i : S_.Idx) :
    val_main_v22 (F := Ideal) x ko klen i = selfLoss x (fun b l => ko (ix2 b l)) (fun b => klen (ix1 b)) := by
  have hsum : ∑ j : S256.Idx, val_main_v20 (F := Ideal) x ko klen j
      = ∑ b : Fin 256, rowMean (klen (ix1 b)) fun l => nlog (pick x b (ko (ix2 b l))) :=
    (sum_idx1 _).trans (Finset.sum_congr rfl fun b _ => row_self x ko klen hko b)
  simp only [val_main_v22_apply, val_main_v21_apply, val_main_cst_4_apply, val_main_cst_5_apply]
  rw [hsum]
  simp only [Ideal.hostDivf_def, Ideal.ofBits_def, Ideal.ofBits_zero_f32, zero_add]
  rfl

theorem elt_target (x : FVec Ideal S256x128000 .f32) (en : IVec S256x32 32) (elen : IVec S256 32) (hen : ∀ i, (en i).toNat < 128000) (b : Fin 256) (l : Fin 32) :
    val_main_v33 (F := Ideal) x en elen (ix2 b l)
      = Scalar.select (IntOp.cmpi .slt (BitVec.ofNat 32 l.val) (elen (ix1 b))) (nlog (pick x b (en (ix2 b l)))) 0 := by
  have hrow : idx_main_v29 (idx_main_v31 (ix2 b l)) = ix1 b :=
    funext fun a => Fin.ext (by match a with | ⟨0, _⟩ => rfl)
  simp only [val_main_v33_apply, val_main_v32_apply, val_main_v30_apply, val_main_v28_apply, val_main_v27_apply, val_main_v31_apply, val_main_v29_apply, val_main_v26_apply, val_main_v25_apply, val_main_v24_apply, val_main_v23_apply, val_main_cst_6_apply, val_main_call4_v1_apply, val_main_call4_v0_apply, val_main_cst_7_apply]
  rw [v1_eq, takeAlong_apply x en hen b l, hrow]
  simp only [Ideal.hostNegf_def, Ideal.negf_def, Ideal.hostUnary_log_def, Ideal.addf_def, Ideal.ofBits_def, Ideal.ofBits_zero_f32]
  rfl

theorem row_target (x : FVec Ideal S256x128000 .f32) (en : IVec S256x32 32) (elen : IVec S256 32) (hen : ∀ i, (en i).toNat < 128000) (b : Fin 256) :
    val_main_v41 (F := Ideal) x en elen (ix1 b) = rowMean (elen (ix1 b)) fun l => nlog (pick x b (en (ix2 b l))) := by
  have hidx : ∀ k : Fin 32, idx_main_v34 (ix1 b) k = ix2 b k := fun k =>
    funext fun a => Fin.ext (by match a with | ⟨0, _⟩ => rfl | ⟨1, _⟩ => rfl)
  have hsum : ∑ k : Fin 32, val_main_v33 (F := Ideal) x en elen (idx_main_v34 (ix1 b) k)
      = ∑ l : Fin 32, Scalar.select (IntOp.cmpi .slt (BitVec.ofNat 32 l.val) (elen (ix1 b))) (nlog (pick x b (en (ix2 b l)))) 0 :=
    Finset.sum_congr rfl fun k _ =>
      (congrArg (val_main_v33 (F := Ideal) x en elen) (hidx k)).trans (elt_target x en elen hen b k)
  simp only [val_main_v41_apply, val_main_v39_apply, val_main_v38_apply, val_main_c_10_apply, val_main_v40_apply, val_main_v34_apply, val_main_cst_8_apply, val_main_v37_apply, val_main_v36_apply, val_main_v35_apply, val_main_c_9_apply, val_main_call5_v1_apply, val_main_call5_v0_apply, val_main_cst_11_apply]
  rw [hsum]
  simp only [Ideal.hostDivf_def, Ideal.ofBits_def, Ideal.ofBits_zero_f32, zero_add]
  rfl

theorem target_eq (x : FVec Ideal S256x128000 .f32) (en : IVec S256x32 32) (elen : IVec S256 32) (hen : ∀ i, (en i).toNat < 128000) (i : S_.Idx) :
    val_main_v43 (F := Ideal) x en elen i = targetLoss x (fun b l => en (ix2 b l)) (fun b => elen (ix1 b)) := by
  have hsum : ∑ j : S256.Idx, val_main_v41 (F := Ideal) x en elen j
      = ∑ b : Fin 256, rowMean (elen (ix1 b)) fun l => nlog (pick x b (en (ix2 b l))) :=
    (sum_idx1 _).trans (Finset.sum_congr rfl fun b _ => row_target x en elen hen b)
  simp only [val_main_v43_apply, val_main_v42_apply, val_main_cst_12_apply, val_main_cst_13_apply]
  rw [hsum]
  simp only [Ideal.hostDivf_def, Ideal.ofBits_def, Ideal.ofBits_zero_f32, zero_add]
  rfl

theorem elt_margin (x : FVec Ideal S256x128000 .f32) (en : IVec S256x32 32) (elen : IVec S256 32) (hen : ∀ i, (en i).toNat < 128000) (b : Fin 256) (l : Fin 32) :
    val_main_v53 (F := Ideal) x en elen (ix2 b l)
      = Scalar.select (IntOp.cmpi .slt (BitVec.ofNat 32 l.val) (elen (ix1 b))) (hinge (pick x b (en (ix2 b l)))) 0 := by
  have hrow : idx_main_v49 (idx_main_v51 (ix2 b l)) = ix1 b :=
    funext fun a => Fin.ext (by match a with | ⟨0, _⟩ => rfl)
  simp only [val_main_v53_apply, val_main_v52_apply, val_main_v50_apply, val_main_v48_apply, val_main_v47_apply, val_main_v51_apply, val_main_v49_apply, val_main_v46_apply, val_main_v45_apply, val_main_v44_apply, val_main_cst_14_apply, val_main_call6_v0_apply, val_main_call6_cst_apply, val_main_call7_v1_apply, val_main_call7_v0_apply, val_main_cst_15_apply]
  rw [v1_eq, takeAlong_apply x en hen b l, hrow]
  simp only [Ideal.maximumf_def, Ideal.subf_def, Ideal.ofBits_def, Ideal.ofBits_zero_f32]
  rfl

theorem row_margin (x : FVec Ideal S256x128000 .f32) (en : IVec S256x32 32) (elen : IVec S256 32) (hen : ∀ i, (en i).toNat < 128000) (b : Fin 256) :
    val_main_v61 (F := Ideal) x en elen (ix1 b) = rowMean (elen (ix1 b)) fun l => hinge (pick x b (en (ix2 b l))) := by
  have hidx : ∀ k : Fin 32, idx_main_v54 (ix1 b) k = ix2 b k := fun k =>
    funext fun a => Fin.ext (by match a with | ⟨0, _⟩ => rfl | ⟨1, _⟩ => rfl)
  have hsum : ∑ k : Fin 32, val_main_v53 (F := Ideal) x en elen (idx_main_v54 (ix1 b) k)
      = ∑ l : Fin 32, Scalar.select (IntOp.cmpi .slt (BitVec.ofNat 32 l.val) (elen (ix1 b))) (hinge (pick x b (en (ix2 b l)))) 0 :=
    Finset.sum_congr rfl fun k _ =>
      (congrArg (val_main_v53 (F := Ideal) x en elen) (hidx k)).trans (elt_margin x en elen hen b k)
  simp only [val_main_v61_apply, val_main_v59_apply, val_main_v58_apply, val_main_c_18_apply, val_main_v60_apply, val_main_v54_apply, val_main_cst_16_apply, val_main_v57_apply, val_main_v56_apply, val_main_v55_apply, val_main_c_17_apply, val_main_call8_v1_apply, val_main_call8_v0_apply, val_main_cst_19_apply]
  rw [hsum]
  simp only [Ideal.hostDivf_def, Ideal.ofBits_def, Ideal.ofBits_zero_f32, zero_add]
  rfl

theorem margin_eq (x : FVec Ideal S256x128000 .f32) (en : IVec S256x32 32) (elen : IVec S256 32) (hen : ∀ i, (en i).toNat < 128000) (i : S_.Idx) :
    val_main_v63 (F := Ideal) x en elen i = marginLoss x (fun b l => en (ix2 b l)) (fun b => elen (ix1 b)) := by
  have hsum : ∑ j : S256.Idx, val_main_v61 (F := Ideal) x en elen j
      = ∑ b : Fin 256, rowMean (elen (ix1 b)) fun l => hinge (pick x b (en (ix2 b l))) :=
    (sum_idx1 _).trans (Finset.sum_congr rfl fun b _ => row_margin x en elen hen b)
  simp only [val_main_v63_apply, val_main_v62_apply, val_main_cst_20_apply, val_main_cst_21_apply]
  rw [hsum]
  simp only [Ideal.hostDivf_def, Ideal.ofBits_def, Ideal.ofBits_zero_f32, zero_add]
  rfl

theorem elt_neg (x : FVec Ideal S256x128000 .f32) (nt : IVec S1024 32) (hnt : ∀ i, (nt i).toNat < 128000) (b : Fin 256) (n : Fin 1024) :
    val_main_v73 (F := Ideal) x nt (ix2 b n) = over (pick x b (nt (ix1 n))) := by
  simp only [val_main_v73_apply, val_main_v72_apply, val_main_v71_apply, val_main_cst_24_apply, val_main_call9_v0_apply, val_main_call9_cst_apply]
  rw [v70_eq, takeCols_apply x nt hnt b n]
  simp only [Ideal.maximumf_def, Ideal.subf_def, Ideal.ofBits_def, Ideal.ofBits_zero_f32]
  rfl

theorem neg_eq (x : FVec Ideal S256x128000 .f32) (nt : IVec S1024 32) (hnt : ∀ i, (nt i).toNat < 128000) (i : S_.Idx) :
    val_main_v75 (F := Ideal) x nt i = negLoss x (fun n => nt (ix1 n)) := by
  have hsum : ∑ j : S256x1024.Idx, val_main_v73 (F := Ideal) x nt j = ∑ b : Fin 256, ∑ n : Fin 1024, over (pick x b (nt (ix1 n))) :=
    (sum_idx2 _).trans (Finset.sum_congr rfl fun b _ => Finset.sum_congr rfl fun n _ => elt_neg x nt hnt b n)
  simp only [val_main_v75_apply, val_main_v74_apply, val_main_cst_25_apply, val_main_cst_26_apply]
  rw [hsum]
  simp only [Ideal.hostDivf_def, Ideal.ofBits_def, Ideal.ofBits_zero_f32, zero_add]
  rfl

theorem val80_eq (x : FVec Ideal S256x128000 .f32) (ko : IVec S256x32 32) (klen : IVec S256 32) (en : IVec S256x32 32) (elen : IVec S256 32)
    (nt : IVec S1024 32) (hko : ∀ i, (ko i).toNat < 128000) (hen : ∀ i, (en i).toNat < 128000) (hnt : ∀ i, (nt i).toNat < 128000) :
    val_main_v80 (F := Ideal) x ko klen en elen nt = losses
      (selfLoss x (fun b l => ko (ix2 b l)) (fun b => klen (ix1 b)))
      (targetLoss x (fun b l => en (ix2 b l)) (fun b => elen (ix1 b)))
      (marginLoss x (fun b l => en (ix2 b l)) (fun b => elen (ix1 b)))
      (negLoss x (fun n => nt (ix1 n))) := by
  funext j
  obtain ⟨k, rfl⟩ : ∃ k : Fin 4, j = ix1 k := ⟨j 0, eq_ix1 j⟩
  unfold val_main_v80
  refine (concat4_apply _ _ _ _ _ k).trans ?_
  rw [val_main_v76_apply, val_main_v77_apply, val_main_v78_apply, val_main_v79_apply,
    self_eq x ko klen hko, target_eq x en elen hen, margin_eq x en elen hen, neg_eq x nt hnt]
  rfl

/-- For ids in range each lookup reads the entry the id names, so every later stage is the specification's term at that index. -/
theorem ref_value (m : (ℓ : Loc nD τ sig) → Buf (Elt Ideal) ℓ) (c : Dev nD)
    (hko : ∀ i, ((m ((c.tc : Thread nD τ).loc main_arg1) : IVec S256x32 32) i).toNat < 128000)
    (hen : ∀ i, ((m ((c.tc : Thread nD τ).loc main_arg3) : IVec S256x32 32) i).toNat < 128000)
    (hnt : ∀ i, ((m ((c.tc : Thread nD τ).loc main_arg5) : IVec S1024 32) i).toNat < 128000) :
    Cert.ReferenceIdeal.ValueP.res_main_v80 (F := Ideal) m c = Cert.TermLoss.losses
      (selfLoss (m ((c.tc : Thread nD τ).loc main_arg0))
        (fun b l => (m ((c.tc : Thread nD τ).loc main_arg1) : IVec S256x32 32) (ix2 b l))
        (fun b => (m ((c.tc : Thread nD τ).loc main_arg2) : IVec S256 32) (ix1 b)))
      (targetLoss (m ((c.tc : Thread nD τ).loc main_arg0))
        (fun b l => (m ((c.tc : Thread nD τ).loc main_arg3) : IVec S256x32 32) (ix2 b l))
        (fun b => (m ((c.tc : Thread nD τ).loc main_arg4) : IVec S256 32) (ix1 b)))
      (marginLoss (m ((c.tc : Thread nD τ).loc main_arg0))
        (fun b l => (m ((c.tc : Thread nD τ).loc main_arg3) : IVec S256x32 32) (ix2 b l))
        (fun b => (m ((c.tc : Thread nD τ).loc main_arg4) : IVec S256 32) (ix1 b)))
      (negLoss (m ((c.tc : Thread nD τ).loc main_arg0))
        (fun n => (m ((c.tc : Thread nD τ).loc main_arg5) : IVec S1024 32) (ix1 n))) :=
  (val_main_v80_eq (F := Ideal) m c).trans (val80_eq _ _ _ _ _ _ hko hen hnt)

end Cert.TermLoss.Ref

end
-- ==== Proof.PreDecode.lean ====
import proofs.«414535_j24696061952429_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.TermLoss

open Idealize.ShloMosaic Idealize.ShloMosaic.ValueIdx

instance subsingleton_scalar_idx : Subsingleton Cert.Pre_finite_inputs.S_.Idx := ⟨fun a b => funext fun d => d.elim0⟩

theorem andi_at {s : Shape} {w : Nat} (a b : IVec s w) (i : s.Idx) : andi a b i = IntOp.andi (a i) (b i) := rfl

theorem toNat_lt_of_signed (w : BitVec 32) (h0 : IntOp.cmpi .sge w 0#32 = 1#1) (h1 : IntOp.cmpi .slt w 128000#32 = 1#1) :
    w.toNat < 128000 := by
  rw [IntOp.cmpi_sge] at h0
  rw [IntOp.cmpi_slt] at h1
  have e0 : (0#32 : BitVec 32).toInt = 0 := by decide
  have e1 : (128000#32 : BitVec 32).toInt = 128000 := by decide
  rw [e0] at h0
  rw [e1] at h1
  have hw := w.isLt
  rw [BitVec.toInt_eq_toNat_cond] at h0 h1
  split at h0 <;> omega

theorem inf_word : Ideal.ofBits .f32 0x7F800000#32 = (⊤ : EReal) := by simp [Ideal.ofBits, Ideal.ieee]

theorem real_of_abs_lt_inf (v : EReal) (h : Ideal.cmp .olt (max v (-v)) (Ideal.ofBits .f32 0x7F800000#32) = 1#1) :
    ∃ r : ℝ, v = (r : EReal) := by
  rw [inf_word] at h
  simp only [Ideal.cmp, StableHlo.Predicate.ofBool_eq_one_iff, decide_eq_true_eq] at h
  induction v using EReal.rec with
  | bot => simp at h
  | coe r => exact ⟨r, rfl⟩
  | top => simp at h

theorem id_lt {s : Shape} (a : IVec s 32) (hb0 : Cert.Pre_finite_inputs.S_.BroadcastsInDim s (![] : Fin 0 → Fin s.rank))
    (i : s.Idx)
    (h : andi (cmpi .sge a (broadcastInDim s ![] hb0 (constantI Cert.Pre_finite_inputs.S_ 32 0#32)))
          (cmpi .slt a (broadcastInDim s ![] hb0 (constantI Cert.Pre_finite_inputs.S_ 32 128000#32))) i = 1#1) :
    (a i).toNat < 128000 := by
  rw [andi_at, IntOp.andi_eq_one] at h
  exact toNat_lt_of_signed (a i) h.1 h.2

theorem pre_decode [Cert.Pre_finite_inputs.Facts] (x : FVec Ideal Cert.Pre_finite_inputs.S256x128000 .f32) (ko : IVec Cert.Pre_finite_inputs.S256x32 32) (klen : IVec Cert.Pre_finite_inputs.S256 32) (en : IVec Cert.Pre_finite_inputs.S256x32 32) (elen : IVec Cert.Pre_finite_inputs.S256 32) (nt : IVec Cert.Pre_finite_inputs.S1024 32)
    (h : Cert.Pre_finite_inputs.fn (F := Ideal) x ko klen en elen nt = (fun _ => 1#1)) :
    (∀ i, ∃ r : ℝ, x i = (r : EReal)) ∧ (∀ i, (ko i).toNat < 128000) ∧ (∀ i, (en i).toNat < 128000) ∧ (∀ i, (nt i).toNat < 128000) := by
  have h0 := congrFun h ix0
  dsimp only [Cert.Pre_finite_inputs.fn, Cert.Pre_finite_inputs.fn_part1] at h0
  rw [andi_at, andi_at, andi_at, IntOp.andi_eq_one, IntOp.andi_eq_one, IntOp.andi_eq_one] at h0
  obtain ⟨⟨⟨hx, hko⟩, hen⟩, hnt⟩ := h0
  refine ⟨fun i => ?_, fun i => ?_, fun i => ?_, fun i => ?_⟩
  · exact real_of_abs_lt_inf (x i) (Host.reduce_andi_all _ _ _ _ _ hx i)
  · exact id_lt ko _ i (Host.reduce_andi_all _ _ _ _ _ hko i)
  · exact id_lt en _ i (Host.reduce_andi_all _ _ _ _ _ hen i)
  · exact id_lt nt _ i (Host.reduce_andi_all _ _ _ _ _ hnt i)

end Cert.TermLoss

end
-- ==== Proof.lean ====
import proofs.«414535_j24696061952429_1_alg».proof.Defs
import proofs.«414535_j24696061952429_1_alg».proof.Proof.Gen.Kernel
import proofs.«414535_j24696061952429_1_alg».proof.Proof.KI.KernelValue
import proofs.«414535_j24696061952429_1_alg».proof.Proof.RefValue
import proofs.«414535_j24696061952429_1_alg».proof.Proof.PreDecode
import proofs.«414535_j24696061952429_1_alg».proof.Proof.Gen.Pre_finite_inputs
import Idealize.ShloMosaic.Adequacy
import Idealize.ShloMosaic.Init

noncomputable section

namespace Cert.Proof

open Idealize.ShloMosaic Idealize.SL.Sem Idealize.ShloMosaic.ValueIdx

/-- The two printed kernel programs are the same text, so their body tables agree label by label. -/
theorem defs₀_eq : (Cert.Kernel.defs₀ (F := Bits) : Defs Cert.KernelIdeal.nD Cert.KernelIdeal.τ Cert.KernelIdeal.sig (Elt Bits) Cert.KernelIdeal.Λ₀) = Cert.KernelIdeal.defs₀ (F := Bits) :=
  congrArg Defs.onTc (funext fun ℓ => funext fun a =>
    match ℓ, a with
    | 0, (t, s) => rfl
    | ⟨_ + 1, h⟩, _ => absurd h (Nat.not_lt.2 (Nat.le_add_left _ _)))

theorem defs_eq : (Cert.Kernel.defs (F := Bits) : Defs Cert.KernelIdeal.nD Cert.KernelIdeal.τ Cert.KernelIdeal.sig (Elt Bits) _) = Cert.KernelIdeal.defs (F := Bits) :=
  congrArg (Pipeline.defs Cert.KernelIdeal.pcfgs) defs₀_eq

/-- The frame is proved once, for every reading of the floats; the first claim is that proof at the other reading. -/
theorem frame_k : Cert.frame_Kernel := fun m ρ _ => defs_eq ▸ Cert.KernelIdeal.Fr.frame (F := Bits) m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' hpre hagree
  have hd := fun c => Cert.TermLoss.pre_decode _ _ _ _ _ _ (hpre c)
  refine ⟨fun c => Cert.TermLoss.losses
      (Cert.TermLoss.selfLoss (m ((c.tc : Thread Cert.KernelIdeal.nD Cert.KernelIdeal.τ).loc Cert.KernelIdeal.main_arg0)) (fun b l => m ((c.tc : Thread Cert.KernelIdeal.nD Cert.KernelIdeal.τ).loc Cert.KernelIdeal.main_arg1) (ix2 b l)) (fun b => m ((c.tc : Thread Cert.KernelIdeal.nD Cert.KernelIdeal.τ).loc Cert.KernelIdeal.main_arg2) (ix1 b)))
      (Cert.TermLoss.targetLoss (m ((c.tc : Thread Cert.KernelIdeal.nD Cert.KernelIdeal.τ).loc Cert.KernelIdeal.main_arg0)) (fun b l => m ((c.tc : Thread Cert.KernelIdeal.nD Cert.KernelIdeal.τ).loc Cert.KernelIdeal.main_arg3) (ix2 b l)) (fun b => m ((c.tc : Thread Cert.KernelIdeal.nD Cert.KernelIdeal.τ).loc Cert.KernelIdeal.main_arg4) (ix1 b)))
      (Cert.TermLoss.marginLoss (m ((c.tc : Thread Cert.KernelIdeal.nD Cert.KernelIdeal.τ).loc Cert.KernelIdeal.main_arg0)) (fun b l => m ((c.tc : Thread Cert.KernelIdeal.nD Cert.KernelIdeal.τ).loc Cert.KernelIdeal.main_arg3) (ix2 b l)) (fun b => m ((c.tc : Thread Cert.KernelIdeal.nD Cert.KernelIdeal.τ).loc Cert.KernelIdeal.main_arg4) (ix1 b)))
      (Cert.TermLoss.negLoss (m ((c.tc : Thread Cert.KernelIdeal.nD Cert.KernelIdeal.τ).loc Cert.KernelIdeal.main_arg0)) (fun n => m ((c.tc : Thread Cert.KernelIdeal.nD Cert.KernelIdeal.τ).loc Cert.KernelIdeal.main_arg5) (ix1 n))), ?_, ?_⟩
  · exact Cert.KernelIdeal.Fr.kernel_value m ρ (fun c => (hd c).1)
  · refine (θ_run Cert.ReferenceIdeal.defs _ _).mono (fun r h c => ⟨(h c).1.trans ?_, (h c).2⟩)
      (Cert.ReferenceIdeal.ValueP.run (F := Ideal) m' ρ')
    have ha := hagree c
    rw [Cert.TermLoss.Ref.ref_value m' c (by rw [ha.2.1]; exact (hd c).2.1) (by rw [ha.2.2.2.1]; exact (hd c).2.2.1)
      (by rw [ha.2.2.2.2.2]; exact (hd c).2.2.2)]
    rw [ha.1, ha.2.1, ha.2.2.1, ha.2.2.2.1, ha.2.2.2.2.1, ha.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
